-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x192 : S_.BroadcastsInDim S256x192 (![] : Fin 0 → Fin S256x192.rank)
  reducesTo_S256x192_S_d0_1 : S256x192.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_arg25 : FVec F S128 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg21 : FVec F S256 .f32) (main_arg22 : FVec F S128x256 .f32) (main_arg23 : FVec F S128 .f32) (main_arg24 : FVec F S128x128 .f32) (main_arg25 : FVec F S128 .f32) (main_v98 : IVec S_ 1) (main_v101 : IVec S256x192 1) (main_c_39 : IVec S_ 1) : IVec S_ 1 :=
  let main_v102 : IVec S_ 1 := (fun x v => Host.reduce IntOp.andi x v reducesTo_S256x192_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S128x256 .f32 := Host.absf main_arg22
  let main_cst_42 : FVec F S_ .f32 := constant S_ .f32 0x7F800000#32
  let main_v110 : FVec F S128x256 .f32 := broadcastInDim S128x256 ![] bcast_S_S128x256 main_cst_42
  let main_v111 : IVec S128x256 1 := cmpf .olt main_v109 main_v110
  let main_c_43 : IVec S_ 1 := constantI S_ 1 1#1
  let main_v112 : IVec S_ 1 := (fun x v => Host.reduce IntOp.andi x v reducesTo_S128x256_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg24
  fn_part7 (F := F) main_arg25 main_v118 main_v119

def fn_part5 {F : FTy → Type} [FloatOps F] (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S10x128 .f32 := Host.absf main_arg18
  let main_cst_34 : FVec F S_ .f32 := constant S_ .f32 0x7F800000#32
  let main_v90 : FVec F S10x128 .f32 := broadcastInDim S10x128 ![] bcast_S_S10x128 main_cst_34
  let main_v91 : IVec S10x128 1 := cmpf .olt main_v89 main_v90
  let main_c_35 : IVec S_ 1 := constantI S_ 1 1#1
  let main_v92 : IVec S_ 1 := (fun x v => Host.reduce IntOp.andi x v reducesTo_S10x128_S_d0_1 h_S_) main_v91 main_c_35
  let main_v93 : IVec S_ 1 := andi main_v88 main_v92
  let main_v94 : FVec F S10 .f32 := Host.absf main_arg19
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S256x192 .f32 := Host.absf main_arg20
  let main_cst_38 : FVec F S_ .f32 := constant S_ .f32 0x7F800000#32
  let main_v100 : FVec F S256x192 .f32 := broadcastInDim S256x192 ![] bcast_S_S256x192 main_cst_38
  let main_v101 : IVec S256x192 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128x64 .f32) (main_arg5 : FVec F S64 .f32) (main_arg6 : FVec F S256x192 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x192 .f32 := Host.absf main_arg6
  let main_cst_10 : FVec F S_ .f32 := constant S_ .f32 0x7F800000#32
  let main_v30 : FVec F S256x192 .f32 := broadcastInDim S256x192 ![] bcast_S_S256x192 main_cst_10
  let main_v31 : IVec S256x192 1 := cmpf .olt main_v29 main_v30
  let main_c_11 : IVec S_ 1 := constantI S_ 1 1#1
  let main_v32 : IVec S_ 1 := (fun x v => Host.reduce IntOp.andi x v reducesTo_S256x192_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S256x192 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S192x256 : Shape := ⟨2, ![192, 256]⟩
abbrev S256x128 : Shape := ⟨2, ![256, 128]⟩
abbrev S128x10 : Shape := ⟨2, ![128, 10]⟩
abbrev S1x128 : Shape := ⟨2, ![1, 128]⟩
abbrev S1x64 : Shape := ⟨2, ![1, 64]⟩
abbrev S64x256 : Shape := ⟨2, ![64, 256]⟩
abbrev S1x256 : Shape := ⟨2, ![1, 256]⟩
abbrev S1x10 : Shape := ⟨2, ![1, 10]⟩
abbrev S10000x10 : Shape := ⟨2, ![10000, 10]⟩
abbrev S10000x192 : Shape := ⟨2, ![10000, 192]⟩
abbrev S200x10000 : Shape := ⟨2, ![200, 10000]⟩
abbrev S400x10 : Shape := ⟨2, ![400, 10]⟩
abbrev S400x128 : Shape := ⟨2, ![400, 128]⟩
abbrev S400x192 : Shape := ⟨2, ![400, 192]⟩
abbrev S10000x64 : Shape := ⟨2, ![10000, 64]⟩
abbrev S200x128 : Shape := ⟨2, ![200, 128]⟩
abbrev S200x64 : Shape := ⟨2, ![200, 64]⟩
abbrev S400x64 : Shape := ⟨2, ![400, 64]⟩
abbrev S400x256 : Shape := ⟨2, ![400, 256]⟩
abbrev S400 : Shape := ⟨1, ![400]⟩
abbrev S400x1 : Shape := ⟨2, ![400, 1]⟩

abbrev nBuf : Space → Nat
  | .hbm => 55
  | .vmem => 40
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x192, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S10x128, .f32⟩
  | .hbm, ⟨19, _⟩ => ⟨S10, .f32⟩
  | .hbm, ⟨20, _⟩ => ⟨S256x192, .f32⟩
  | .hbm, ⟨21, _⟩ => ⟨S256, .f32⟩
  | .hbm, ⟨22, _⟩ => ⟨S128x256, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S192x256, .f32⟩
  | .hbm, ⟨27, _⟩ => ⟨S256x128, .f32⟩
  | .hbm, ⟨28, _⟩ => ⟨S128x10, .f32⟩
  | .hbm, ⟨29, _⟩ => ⟨S192x256, .f32⟩
  | .hbm, ⟨30, _⟩ => ⟨S256x128, .f32⟩
  | .hbm, ⟨31, _⟩ => ⟨S128x128, .f32⟩
  | .hbm, ⟨32, _⟩ => ⟨S1x128, .f32⟩
  | .hbm, ⟨33, _⟩ => ⟨S1x64, .f32⟩
  | .hbm, ⟨34, _⟩ => ⟨S128x256, .f32⟩
  | .hbm, ⟨35, _⟩ => ⟨S64x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x10, .f32⟩
  | .hbm, ⟨47, _⟩ => ⟨S128x256, .f32⟩
  | .hbm, ⟨48, _⟩ => ⟨S64x256, .f32⟩
  | .hbm, ⟨49, _⟩ => ⟨S1x256, .f32⟩
  | .hbm, ⟨50, _⟩ => ⟨S1x128, .f32⟩
  | .hbm, ⟨51, _⟩ => ⟨S1x128, .f32⟩
  | .hbm, ⟨52, _⟩ => ⟨S10000x10, .f32⟩
  | .hbm, ⟨53, _⟩ => ⟨S10000x128, .f32⟩
  | .hbm, ⟨54, _⟩ => ⟨S10000x192, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S128x256, .f32⟩
  | .local _ .vmem, ⟨10, _⟩ => ⟨S64x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x10, .f32⟩
  | .local _ .vmem, ⟨23, _⟩ => ⟨S1x10, .f32⟩
  | .local _ .vmem, ⟨24, _⟩ => ⟨S128x256, .f32⟩
  | .local _ .vmem, ⟨25, _⟩ => ⟨S64x256, .f32⟩
  | .local _ .vmem, ⟨26, _⟩ => ⟨S1x256, .f32⟩
  | .local _ .vmem, ⟨27, _⟩ => ⟨S256x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S400x10, .f32⟩
  | .local _ .vmem, ⟨32, _⟩ => ⟨S400x10, .f32⟩
  | .local _ .vmem, ⟨33, _⟩ => ⟨S400x128, .f32⟩
  | .local _ .vmem, ⟨34, _⟩ => ⟨S400x128, .f32⟩
  | .local _ .vmem, ⟨35, _⟩ => ⟨S400x192, .f32⟩
  | .local _ .vmem, ⟨36, _⟩ => ⟨S400x192, .f32⟩
  | .local _ .vmem, ⟨37, _⟩ => ⟨S10000x128, .bf16⟩
  | .local _ .vmem, ⟨38, _⟩ => ⟨S10000x128, .f32⟩
  | .local _ .vmem, ⟨39, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26_0 : Ref sig .tc := ⟨.hbm, 52, rfl⟩
abbrev main_v26_1 : Ref sig .tc := ⟨.hbm, 53, rfl⟩
abbrev main_v26_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg29_1 : Ref sig .tc := ⟨.vmem, 32, rfl⟩
abbrev cc0_stg30_0 : Ref sig .tc := ⟨.vmem, 33, rfl⟩
abbrev cc0_stg30_1 : Ref sig .tc := ⟨.vmem, 34, rfl⟩
abbrev cc0_stg31_0 : Ref sig .tc := ⟨.vmem, 35, rfl⟩
abbrev cc0_stg31_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem29_1 : DmaSem sig := 32
abbrev cc0_sem30_0 : DmaSem sig := 33
abbrev cc0_sem30_1 : DmaSem sig := 34
abbrev cc0_sem31_0 : DmaSem sig := 35
abbrev cc0_sem31_1 : DmaSem sig := 36

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v30 : BitVec 32 := Scalar.muli arg1 c400_i32
  let v31 : Index := Scalar.indexCast v30
  let c0_18 : Index := 0#32
  ![v31.toNat, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_off2 (i : grid0.Coords) : Fin 2 → Nat :=
  let arg1 : BitVec 32 := BitVec.ofNat 32 (i 1).val
  let c400_i32 : BitVec 32 := 400#32
  let v16 : BitVec 32 := Scalar.muli arg1 c400_i32
  let v17 : Index := Scalar.indexCast v16
  let c0 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_30 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_31 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S128x10 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x10 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S64x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S256x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 2 → Memref sig .tc .vmem S400x10 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S400x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S400x192 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

class Facts₀ : Prop where
  transposes_S256x192_S192x256_1_0 : S256x192.Transposes [1, 0] S192x256
  transposes_S128x256_S256x128_1_0 : S128x256.Transposes [1, 0] S256x128
  transposes_S10x128_S128x10_1_0 : S10x128.Transposes [1, 0] S128x10
  transposes_S128x128_S128x128_1_0 : S128x128.Transposes [1, 0] S128x128
  bcast_S128_S1x128_1 : S128.BroadcastsInDim S1x128 (![1] : Fin 1 → Fin S1x128.rank)
  bcast_S64_S1x64_1 : S64.BroadcastsInDim S1x64 (![1] : Fin 1 → Fin S1x64.rank)
  slices_S192x256_S128x256_0_0 : S192x256.Slices ![0, 0] S128x256
  slices_S192x256_S64x256_128_0 : S192x256.Slices ![128, 0] S64x256
  bcast_S256_S1x256_1 : S256.BroadcastsInDim S1x256 (![1] : Fin 1 → Fin S1x256.rank)
  bcast_S10_S1x10_1 : S10.BroadcastsInDim S1x10 (![1] : Fin 1 → Fin S1x10.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  concatenates_S200x128_S200x128_S400x128_d0 : Shape.Concatenates [S200x128, S200x128] S400x128 0
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  concatenates_S200x64_S200x64_S400x64_d0 : Shape.Concatenates [S200x64, S200x64] S400x64 0
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x192_S400x128_0_0 : ∀ a, (![0, 0] : Fin 2 → Nat) a + S400x128.size a ≤ S400x192.size a
  inb_S400x192_S400x64_0_128 : ∀ a, (![0, 128] : Fin 2 → Nat) a + S400x64.size a ≤ S400x192.size a
  h_S400x64 : 0 < S400x64.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S400x10 : S1x10.Broadcasts S400x10
  reduces_S400x10_S400 : S400x10.Reduces [1] S400
  shapeCasts_S400_S400x1 : S400.ShapeCasts S400x1
  broadcasts_S400x1_S400x10 : S400x1.Broadcasts S400x10
  inb_S400x10_S400x10_0_0 : ∀ a, (![0, 0] : Fin 2 → Nat) a + S400x10.size a ≤ S400x10.size a
  h_S400x10 : 0 < S400x10.numel
  shapeCasts_S128x128_S128x128 : S128x128.ShapeCasts S128x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S400x128_S128x256_S400x256_1_0_0_1_n_n_wf : DotDims.WF S400x128 S128x256 S400x256 [1] [0] [0] [1] [] []
  dot_S400x64_S64x256_S400x256_1_0_0_1_n_n_wf : DotDims.WF S400x64 S64x256 S400x256 [1] [0] [0] [1] [] []
  dot_S400x256_S256x128_S400x128_1_0_0_1_n_n_wf : DotDims.WF S400x256 S256x128 S400x128 [1] [0] [0] [1] [] []
  dot_S400x128_S128x10_S400x10_1_0_0_1_n_n_wf : DotDims.WF S400x128 S128x10 S400x10 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  k0_off2_inb : ∀ i : grid0.Coords, ∀ (k0_h4 : k0_cond4 i = 1#1), ∀ a, (k0_off2 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x256.size a ≤ S64x256.size a
  hwx0_8 : ∀ i : grid0.Coords, EltTy.bits .f32 = 32 ∨ (Rect.block (s := S64x256) S64x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x128.size a ≤ S256x128.size a
  hwx0_14 : ∀ i : grid0.Coords, EltTy.bits .f32 = 32 ∨ (Rect.block (s := S256x128) S256x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x10.size a ≤ S128x10.size a
  hwx0_20 : ∀ i : grid0.Coords, EltTy.bits .f32 = 32 ∨ (Rect.block (s := S128x10) S128x10.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x10.size a ≤ S1x10.size a
  hwx0_21 : ∀ i : grid0.Coords, EltTy.bits .f32 = 32 ∨ (Rect.block (s := S1x10) S1x10.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x256.size a ≤ S128x256.size a
  hwx0_22 : ∀ i : grid0.Coords, EltTy.bits .f32 = 32 ∨ (Rect.block (s := S128x256) S128x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S64x256.size a ≤ S64x256.size a
  hwx0_23 : ∀ i : grid0.Coords, EltTy.bits .f32 = 32 ∨ (Rect.block (s := S64x256) S64x256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x256.size a ≤ S1x256.size a
  hwx0_24 : ∀ i : grid0.Coords, EltTy.bits .f32 = 32 ∨ (Rect.block (s := S1x256) S1x256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256x128.size a ≤ S256x128.size a
  hwx0_25 : ∀ i : grid0.Coords, EltTy.bits .f32 = 32 ∨ (Rect.block (s := S256x128) S256x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x128.size a ≤ S1x128.size a
  hwx0_26 : ∀ i : grid0.Coords, EltTy.bits .f32 = 32 ∨ (Rect.block (s := S1x128) S1x128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S128x128.size a ≤ S128x128.size a
  hwx0_27 : ∀ i : grid0.Coords, EltTy.bits .f32 = 32 ∨ (Rect.block (s := S128x128) S128x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S400x10.size a ≤ S10000x10.size a
  hwx0_29 : ∀ i : grid0.Coords, EltTy.bits .f32 = 32 ∨ (Rect.block (s := S10000x10) S400x10.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S400x128.size a ≤ S10000x128.size a
  hwx0_30 : ∀ i : grid0.Coords, EltTy.bits .f32 = 32 ∨ (Rect.block (s := S10000x128) S400x128.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S400x192.size a ≤ S10000x192.size a
  hwx0_31 : ∀ i : grid0.Coords, EltTy.bits .f32 = 32 ∨ (Rect.block (s := S10000x192) S400x192.size (cc0_transform_31 i) (hinb0_31 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x64_S64x256_S400x256_1_0_0_1_n_n : DotDims S400x64 S64x256 S400x256 where
  lhsContracting := [1]
  rhsContracting := [0]
  lhsNonContracting := [0]
  rhsNonContracting := [1]
  lhsBatch := []
  rhsBatch := []
  wf := dot_S400x64_S64x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x10_S400x10_1_0_0_1_n_n : DotDims S400x128 S128x10 S400x10 where
  lhsContracting := [1]
  rhsContracting := [0]
  lhsNonContracting := [0]
  rhsNonContracting := [1]
  lhsBatch := []
  rhsBatch := []
  wf := dot_S400x128_S128x10_S400x10_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S64x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1) S256x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v18) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v19) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v2) S128x10.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v20) S1x10.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v21) S128x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v22) S64x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v23) S1x256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v4) S256x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v24) S1x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v5) S128x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v25) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v26_0) S400x10.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v26_1) S400x128.size cc0_transform_30 reads0_30 true false 2 stage0_30 sem0_30
    hrank0 hreads0_30 hinb0_30 nbuf0_30 (Memref.isWhole_whole _) hwx0_30 hstage0_30

abbrev win0_31 : Pipeline.Window sig grid0 :=
  Pipeline.Window.ofSpec (Memref.whole main_v26_2) S400x192.size cc0_transform_31 reads0_31 true false 2 stage0_31 sem0_31
    hrank0 hreads0_31 hinb0_31 nbuf0_31 (Memref.isWhole_whole _) hwx0_31 hstage0_31

abbrev win0 : Fin 32 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | ⟨_ + 32, h⟩ => absurd h (Nat.not_lt.2 (Nat.le_add_left _ _))
abbrev spec0 : Fin 32 → Pipeline.WinSpec sig grid0.rank := fun w => (win0 w).toWinSpec

abbrev idle0 : Fin 32 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun _ => false | 29 => fun i => !(k0_cond4 i == 1#1) | 30 => fun i => !(k0_cond4 i == 1#1) | 31 => fun i => !(k0_cond4 i == 1#1) | ⟨_ + 32, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S1x128 : Shape := ⟨2, ![1, 128]⟩
abbrev S10000x64 : Shape := ⟨2, ![10000, 64]⟩
abbrev S1x64 : Shape := ⟨2, ![1, 64]⟩
abbrev S10000x192 : Shape := ⟨2, ![10000, 192]⟩
abbrev S192x256 : Shape := ⟨2, ![192, 256]⟩
abbrev S10000x256 : Shape := ⟨2, ![10000, 256]⟩
abbrev S1x256 : Shape := ⟨2, ![1, 256]⟩
abbrev S_ : Shape := ⟨0, ![]⟩
abbrev S256x128 : Shape := ⟨2, ![256, 128]⟩
abbrev S128x10 : Shape := ⟨2, ![128, 10]⟩
abbrev S10000x10 : Shape := ⟨2, ![10000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 128
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x192, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S10x128, .f32⟩
  | .hbm, ⟨19, _⟩ => ⟨S10, .f32⟩
  | .hbm, ⟨20, _⟩ => ⟨S256x192, .f32⟩
  | .hbm, ⟨21, _⟩ => ⟨S256, .f32⟩
  | .hbm, ⟨22, _⟩ => ⟨S128x256, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x64, .f32⟩
  | .hbm, ⟨33, _⟩ => ⟨S10000x64, .f32⟩
  | .hbm, ⟨34, _⟩ => ⟨S1x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S10000x192, .f32⟩
  | .hbm, ⟨39, _⟩ => ⟨S192x256, .f32⟩
  | .hbm, ⟨40, _⟩ => ⟨S10000x256, .f32⟩
  | .hbm, ⟨41, _⟩ => ⟨S1x256, .f32⟩
  | .hbm, ⟨42, _⟩ => ⟨S10000x256, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S10000x256, .f32⟩
  | .hbm, ⟨53, _⟩ => ⟨S10000x256, .f32⟩
  | .hbm, ⟨54, _⟩ => ⟨S1x256, .f32⟩
  | .hbm, ⟨55, _⟩ => ⟨S10000x256, .f32⟩
  | .hbm, ⟨56, _⟩ => ⟨S10000x256, .f32⟩
  | .hbm, ⟨57, _⟩ => ⟨S1x256, .f32⟩
  | .hbm, ⟨58, _⟩ => ⟨S10000x256, .f32⟩
  | .hbm, ⟨59, _⟩ => ⟨S10000x256, .f32⟩
  | .hbm, ⟨60, _⟩ => ⟨S_, .f32⟩
  | .hbm, ⟨61, _⟩ => ⟨S10000x256, .f32⟩
  | .hbm, ⟨62, _⟩ => ⟨S10000x256, .f32⟩
  | .hbm, ⟨63, _⟩ => ⟨S256x128, .f32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S10000x128, .f32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | .hbm, ⟨81, _⟩ => ⟨S1x128, .f32⟩
  | .hbm, ⟨82, _⟩ => ⟨S10000x128, .f32⟩
  | .hbm, ⟨83, _⟩ => ⟨S10000x128, .f32⟩
  | .hbm, ⟨84, _⟩ => ⟨S_, .f32⟩
  | .hbm, ⟨85, _⟩ => ⟨S10000x128, .f32⟩
  | .hbm, ⟨86, _⟩ => ⟨S10000x128, .f32⟩
  | .hbm, ⟨87, _⟩ => ⟨S128x10, .f32⟩
  | .hbm, ⟨88, _⟩ => ⟨S10000x10, .f32⟩
  | .hbm, ⟨89, _⟩ => ⟨S1x10, .f32⟩
  | .hbm, ⟨90, _⟩ => ⟨S10000x10, .f32⟩
  | .hbm, ⟨91, _⟩ => ⟨S10000x10, .f32⟩
  | .hbm, ⟨92, _⟩ => ⟨S_, .f32⟩
  | .hbm, ⟨93, _⟩ => ⟨S10000, .f32⟩
  | .hbm, ⟨94, _⟩ => ⟨S_, .f32⟩
  | .hbm, ⟨95, _⟩ => ⟨S10000, .f32⟩
  | .hbm, ⟨96, _⟩ => ⟨S10000, .f32⟩
  | .hbm, ⟨97, _⟩ => ⟨S10000x1, .f32⟩
  | .hbm, ⟨98, _⟩ => ⟨S10000x10, .f32⟩
  | .hbm, ⟨99, _⟩ => ⟨S10000x10, .f32⟩
  | .hbm, ⟨100, _⟩ => ⟨S10000x10, .f32⟩
  | .hbm, ⟨101, _⟩ => ⟨S_, .f32⟩
  | .hbm, ⟨102, _⟩ => ⟨S10000, .f32⟩
  | .hbm, ⟨103, _⟩ => ⟨S10000x1, .f32⟩
  | .hbm, ⟨104, _⟩ => ⟨S10000x1, .f32⟩
  | .hbm, ⟨105, _⟩ => ⟨S10000x10, .f32⟩
  | .hbm, ⟨106, _⟩ => ⟨S10000x10, .f32⟩
  | .hbm, ⟨107, _⟩ => ⟨S192x256, .f32⟩
  | .hbm, ⟨108, _⟩ => ⟨S10000x256, .f32⟩
  | .hbm, ⟨109, _⟩ => ⟨S1x256, .f32⟩
  | .hbm, ⟨110, _⟩ => ⟨S10000x256, .f32⟩
  | .hbm, ⟨111, _⟩ => ⟨S10000x256, .f32⟩
  | .hbm, ⟨112, _⟩ => ⟨S_, .f32⟩
  | .hbm, ⟨113, _⟩ => ⟨S10000x256, .f32⟩
  | .hbm, ⟨114, _⟩ => ⟨S10000x256, .f32⟩
  | .hbm, ⟨115, _⟩ => ⟨S256x128, .f32⟩
  | .hbm, ⟨116, _⟩ => ⟨S10000x128, .f32⟩
  | .hbm, ⟨117, _⟩ => ⟨S1x128, .f32⟩
  | .hbm, ⟨118, _⟩ => ⟨S10000x128, .f32⟩
  | .hbm, ⟨119, _⟩ => ⟨S10000x128, .f32⟩
  | .hbm, ⟨120, _⟩ => ⟨S_, .f32⟩
  | .hbm, ⟨121, _⟩ => ⟨S10000x128, .f32⟩
  | .hbm, ⟨122, _⟩ => ⟨S10000x128, .f32⟩
  | .hbm, ⟨123, _⟩ => ⟨S128x128, .f32⟩
  | .hbm, ⟨124, _⟩ => ⟨S10000x128, .f32⟩
  | .hbm, ⟨125, _⟩ => ⟨S1x128, .f32⟩
  | .hbm, ⟨126, _⟩ => ⟨S10000x128, .f32⟩
  | .hbm, ⟨127, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call0_cst : Ref sig .tc := ⟨.hbm, 60, rfl⟩
abbrev main_call0_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_cst : Ref sig .tc := ⟨.hbm, 84, rfl⟩
abbrev main_call1_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call3_cst : Ref sig .tc := ⟨.hbm, 112, rfl⟩
abbrev main_call3_v0 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_call4_cst : Ref sig .tc := ⟨.hbm, 120, rfl⟩
abbrev main_call4_v0 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  concatenates_S10000x128_S10000x64_S10000x192_d1 : Shape.Concatenates [S10000x128, S10000x64] S10000x192 1
  transposes_S256x192_S192x256_1_0 : S256x192.Transposes [1, 0] S192x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S256 : S_.BroadcastsInDim S256 (![] : Fin 0 → Fin S256.rank)
  bcast_S_S10000x256 : S_.BroadcastsInDim S10000x256 (![] : Fin 0 → Fin S10000x256.rank)
  transposes_S128x256_S256x128_1_0 : S128x256.Transposes [1, 0] S256x128
  bcast_S_S128 : S_.BroadcastsInDim S128 (![] : Fin 0 → Fin S128.rank)
  bcast_S_S10000x128 : S_.BroadcastsInDim S10000x128 (![] : Fin 0 → Fin S10000x128.rank)
  transposes_S10x128_S128x10_1_0 : S10x128.Transposes [1, 0] S128x10
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  reducesTo_S10000x10_S10000_d1 : S10000x10.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x192_S192x256_S10000x256_1_0_0_1_n_n_wf : DotDims.WF S10000x192 S192x256 S10000x256 [1] [0] [0] [1] [] []
  dot_S10000x256_S256x128_S10000x128_1_0_0_1_n_n_wf : DotDims.WF S10000x256 S256x128 S10000x128 [1] [0] [0] [1] [] []
  dot_S10000x128_S128x10_S10000x10_1_0_0_1_n_n_wf : DotDims.WF S10000x128 S128x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x192_S192x256_S10000x256_1_0_0_1_n_n : DotDims S10000x192 S192x256 S10000x256 where
  lhsContracting := [1]
  rhsContracting := [0]
  lhsNonContracting := [0]
  rhsNonContracting := [1]
  lhsBatch := []
  rhsBatch := []
  wf := dot_S10000x192_S192x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.KB.Tables.lean ====
import proofs.«167823_g73521250173546_cont_sun_c4_545_21_alg».proof.Proof.Gen.Kernel.Launch
import proofs.«167823_g73521250173546_cont_sun_c4_545_21_alg».proof.Proof.Gen.Kernel.Skeleton
import proofs.«167823_g73521250173546_cont_sun_c4_545_21_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

abbrev hostOuts : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25]

/-- Each host operation writes its one result, and the results are main_v0 … main_v25. -/
theorem hostOps0_writes : (hostOps0 : List (HloOp τ sig (Elt F))).Forall fun op => op.writes ⊆ (hostOuts.map (Proc.devRef (τ := τ) .tc)).toFinset := by
  simp only [hostOps0, List.Forall, StableHlo.unary_writes, Finset.singleton_subset_iff, List.mem_toFinset]
  repeat' apply And.intro
  all_goals exact List.mem_map.2 ⟨_, by decide, rfl⟩

/-- A reference no host operation writes holds at the region's entry what it held at the start. -/
theorem V_of_not_written (c : Dev nD) {r : Ref sig .tc} (hr : r ∉ hostOuts) : V m c r = m ((c : Thread nD τ).loc r) :=
  StableHlo.after_of_writes_sub hostOps0 _ hostOps0_writes hr

section
variable (c : Dev nD) (t : Fin cfg0.N)

theorem V_main_arg0 : V m c main_arg0 = m ((c : Thread nD τ).loc main_arg0) := V_of_not_written m c (by decide)
theorem V_main_arg1 : V m c main_arg1 = m ((c : Thread nD τ).loc main_arg1) := V_of_not_written m c (by decide)
theorem V_main_arg2 : V m c main_arg2 = m ((c : Thread nD τ).loc main_arg2) := V_of_not_written m c (by decide)
theorem V_main_arg4 : V m c main_arg4 = m ((c : Thread nD τ).loc main_arg4) := V_of_not_written m c (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev blk0_0 : Vec F S200x10000 .f32 := iblk m c 0 t
abbrev blk0_1 : Vec F S200x10000 .f32 := iblk m c 1 t
abbrev blk0_2 : Vec F S10000x128 .f32 := iblk m c 2 t
abbrev blk0_3 : Vec F S128x128 .f32 := iblk m c 3 t
abbrev blk0_4 : Vec F S1x128 .f32 := iblk m c 4 t
abbrev blk0_5 : Vec F S128x64 .f32 := iblk m c 5 t
abbrev blk0_6 : Vec F S1x64 .f32 := iblk m c 6 t
abbrev blk0_7 : Vec F S128x256 .f32 := iblk m c 7 t
abbrev blk0_8 : Vec F S64x256 .f32 := iblk m c 8 t
abbrev blk0_9 : Vec F S1x256 .f32 := iblk m c 9 t
abbrev blk0_10 : Vec F S1x256 .f32 := iblk m c 10 t
abbrev blk0_11 : Vec F S1x256 .f32 := iblk m c 11 t
abbrev blk0_12 : Vec F S1x256 .f32 := iblk m c 12 t
abbrev blk0_13 : Vec F S1x256 .f32 := iblk m c 13 t
abbrev blk0_14 : Vec F S256x128 .f32 := iblk m c 14 t
abbrev blk0_15 : Vec F S1x128 .f32 := iblk m c 15 t
abbrev blk0_16 : Vec F S1x128 .f32 := iblk m c 16 t
abbrev blk0_17 : Vec F S1x128 .f32 := iblk m c 17 t
abbrev blk0_18 : Vec F S1x128 .f32 := iblk m c 18 t
abbrev blk0_19 : Vec F S1x128 .f32 := iblk m c 19 t
abbrev blk0_20 : Vec F S128x10 .f32 := iblk m c 20 t
abbrev blk0_21 : Vec F S1x10 .f32 := iblk m c 21 t
abbrev blk0_22 : Vec F S128x256 .f32 := iblk m c 22 t
abbrev blk0_23 : Vec F S64x256 .f32 := iblk m c 23 t
abbrev blk0_24 : Vec F S1x256 .f32 := iblk m c 24 t
abbrev blk0_25 : Vec F S256x128 .f32 := iblk m c 25 t
abbrev blk0_26 : Vec F S1x128 .f32 := iblk m c 26 t
abbrev blk0_27 : Vec F S128x128 .f32 := iblk m c 27 t
abbrev blk0_28 : Vec F S1x128 .f32 := iblk m c 28 t

abbrev ms0_0 : Memref sig .tc .vmem S200x10000 .f32 := win0_0.stage (cfg0.slots t 0)
abbrev ms0_1 : Memref sig .tc .vmem S200x10000 .f32 := win0_1.stage (cfg0.slots t 1)
abbrev ms0_2 : Memref sig .tc .vmem S10000x128 .f32 := win0_2.stage (cfg0.slots t 2)
abbrev ms0_3 : Memref sig .tc .vmem S128x128 .f32 := win0_3.stage (cfg0.slots t 3)
abbrev ms0_4 : Memref sig .tc .vmem S1x128 .f32 := win0_4.stage (cfg0.slots t 4)
abbrev ms0_5 : Memref sig .tc .vmem S128x64 .f32 := win0_5.stage (cfg0.slots t 5)
abbrev ms0_6 : Memref sig .tc .vmem S1x64 .f32 := win0_6.stage (cfg0.slots t 6)
abbrev ms0_7 : Memref sig .tc .vmem S128x256 .f32 := win0_7.stage (cfg0.slots t 7)
abbrev ms0_8 : Memref sig .tc .vmem S64x256 .f32 := win0_8.stage (cfg0.slots t 8)
abbrev ms0_9 : Memref sig .tc .vmem S1x256 .f32 := win0_9.stage (cfg0.slots t 9)
abbrev ms0_10 : Memref sig .tc .vmem S1x256 .f32 := win0_10.stage (cfg0.slots t 10)
abbrev ms0_11 : Memref sig .tc .vmem S1x256 .f32 := win0_11.stage (cfg0.slots t 11)
abbrev ms0_12 : Memref sig .tc .vmem S1x256 .f32 := win0_12.stage (cfg0.slots t 12)
abbrev ms0_13 : Memref sig .tc .vmem S1x256 .f32 := win0_13.stage (cfg0.slots t 13)
abbrev ms0_14 : Memref sig .tc .vmem S256x128 .f32 := win0_14.stage (cfg0.slots t 14)
abbrev ms0_15 : Memref sig .tc .vmem S1x128 .f32 := win0_15.stage (cfg0.slots t 15)
abbrev ms0_16 : Memref sig .tc .vmem S1x128 .f32 := win0_16.stage (cfg0.slots t 16)
abbrev ms0_17 : Memref sig .tc .vmem S1x128 .f32 := win0_17.stage (cfg0.slots t 17)
abbrev ms0_18 : Memref sig .tc .vmem S1x128 .f32 := win0_18.stage (cfg0.slots t 18)
abbrev ms0_19 : Memref sig .tc .vmem S1x128 .f32 := win0_19.stage (cfg0.slots t 19)
abbrev ms0_20 : Memref sig .tc .vmem S128x10 .f32 := win0_20.stage (cfg0.slots t 20)
abbrev ms0_21 : Memref sig .tc .vmem S1x10 .f32 := win0_21.stage (cfg0.slots t 21)
abbrev ms0_22 : Memref sig .tc .vmem S128x256 .f32 := win0_22.stage (cfg0.slots t 22)
abbrev ms0_23 : Memref sig .tc .vmem S64x256 .f32 := win0_23.stage (cfg0.slots t 23)
abbrev ms0_24 : Memref sig .tc .vmem S1x256 .f32 := win0_24.stage (cfg0.slots t 24)
abbrev ms0_25 : Memref sig .tc .vmem S256x128 .f32 := win0_25.stage (cfg0.slots t 25)
abbrev ms0_26 : Memref sig .tc .vmem S1x128 .f32 := win0_26.stage (cfg0.slots t 26)
abbrev ms0_27 : Memref sig .tc .vmem S128x128 .f32 := win0_27.stage (cfg0.slots t 27)
abbrev ms0_28 : Memref sig .tc .vmem S1x128 .f32 := win0_28.stage (cfg0.slots t 28)
abbrev ms0_29 : Memref sig .tc .vmem S400x10 .f32 := win0_29.stage (cfg0.slots t 29)
abbrev ms0_30 : Memref sig .tc .vmem S400x128 .f32 := win0_30.stage (cfg0.slots t 30)
abbrev ms0_31 : Memref sig .tc .vmem S400x192 .f32 := win0_31.stage (cfg0.slots t 31)
end

abbrev scM0_0 : Memref sig .tc .vmem S10000x128 .bf16 := Memref.whole cc0_scratch0
abbrev scM0_1 : Memref sig .tc .vmem S10000x128 .f32 := Memref.whole cc0_scratch1
abbrev scM0_2 : Memref sig .tc .vmem S10000x64 .bf16 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Each argument holds V after the run, and V is the initial contents at every reference the host operations do not write. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    have st (w : Fin 32) (hw : (cfg0.win w).isOut = false) : r.2.mem ((c.tc : Thread nD τ).loc (Pipeline.arrRef spec0 w)) = V m c (Pipeline.arrRef spec0 w) :=
      ((h c).1 w).trans (((dats 0 c).arrAt_in w hw _).trans (hA c w))
    have rs (b : Ref sig .tc) (hb : b.isScoped = false ∧ (∀ w, (spec0 w).arr.view.ref ≠ b) ∧ b ∉ hostOuts) : r.2.mem ((c.tc : Thread nD τ).loc b) = m ((c.tc : Thread nD τ).loc b) :=
      ((h c).2 b (Pipeline.mem_restRefs_of b hb.1 hb.2.1)).trans (V_of_not_written m c hb.2.2)
    ⟨(st 2 rfl).trans (V_main_arg0 m c),
      (st 0 rfl).trans (V_main_arg1 m c),
      (st 3 rfl).trans (V_main_arg2 m c),
      rs main_arg3 (by decide),
      (st 5 rfl).trans (V_main_arg4 m c),
      rs main_arg5 (by decide),
      rs main_arg6 (by decide),
      rs main_arg7 (by decide),
      rs main_arg8 (by decide),
      rs main_arg9 (by decide),
      rs main_arg10 (by decide),
      rs main_arg11 (by decide),
      rs main_arg12 (by decide),
      rs main_arg13 (by decide),
      rs main_arg14 (by decide),
      rs main_arg15 (by decide),
      rs main_arg16 (by decide),
      rs main_arg17 (by decide),
      rs main_arg18 (by decide),
      rs main_arg19 (by decide),
      rs main_arg20 (by decide),
      rs main_arg21 (by decide),
      rs main_arg22 (by decide),
      rs main_arg23 (by decide),
      rs main_arg24 (by decide),
      rs main_arg25 (by decide)⟩) h

end Cert.Kernel.Hand

end
-- ==== Proof.KB.Conds.lean ====
import proofs.«167823_g73521250173546_cont_sun_c4_545_21_alg».proof.Proof.Gen.Kernel.Skeleton
import proofs.«167823_g73521250173546_cont_sun_c4_545_21_alg».proof.Proof.Gen.Kernel.Launch
import proofs.«167823_g73521250173546_cont_sun_c4_545_21_alg».proof.Proof.Gen.Kernel.Points

noncomputable section

namespace Cert.Kernel.Hand

open Idealize.ShloMosaic Idealize.ShloMosaic.TcCoe
open Cert.Kernel Cert.Kernel.Gen

abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
abbrev cond2 (i : grid0.Coords) : Prop := k0_cond2 i = 1#1
abbrev cond3 (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1
abbrev cond4 (i : grid0.Coords) : Prop := k0_cond4 i = 1#1

/-- On the linearised grid t = 25 p + j the four branch conditions are t = 0, t < 25, t = 25 and 25 ≤ t. -/
theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)

/-- Both row offsets are 400 j. -/
theorem off1_val : ∀ t : Fin cfg0.N, k0_off1 (grid0.coords t) = ![400 * (t.val % 25), 0] :=
  (by decide +kernel : ∀ t : Fin grid0.N, k0_off1 (grid0.coords t) = ![400 * (t.val % 25), 0])
theorem off2_val : ∀ t : Fin cfg0.N, k0_off2 (grid0.coords t) = ![400 * (t.val % 25), 0] :=
  (by decide +kernel : ∀ t : Fin grid0.N, k0_off2 (grid0.coords t) = ![400 * (t.val % 25), 0])

theorem noflush_out : ∀ t : Fin cfg0.N, ∀ w : Fin 32, 29 ≤ w.val → t.val < 25 → (cfg0.win w).flush t = false := by decide +kernel
theorem flush_out : ∀ t : Fin cfg0.N, ∀ w : Fin 32, 29 ≤ w.val → 25 ≤ t.val → (cfg0.win w).flush t = true := by decide +kernel
theorem live_in : ∀ t : Fin cfg0.N, ∀ w : Fin 32, w.val < 29 → cfg0.idle w (grid0.coords t) = false := by decide +kernel

end Cert.Kernel.Hand

end
-- ==== Proof.KB.Data.lean ====
import proofs.«167823_g73521250173546_cont_sun_c4_545_21_alg».proof.Proof.KB.Tables
import proofs.«167823_g73521250173546_cont_sun_c4_545_21_alg».proof.Proof.KB.Conds
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.Kernel Cert.Kernel.Gen Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

def t0 : Fin cfg0.N := ⟨0, by rw [N50]; omega⟩
def t25 : Fin cfg0.N := ⟨25, by rw [N50]; omega⟩

/-- s1 = x · W1, rounded to bf16. -/
def s1val (c : Dev nD) : FVec F S10000x128 .bf16 := k0_pay1 (blk0_2 m c t0) (blk0_3 m c t0)

/-- Rows 400 j … 400 j + 399 of x1 = tanh(adj · s1 + b1), j = t mod 25. -/
def x1blk (c : Dev nD) (t : Fin cfg0.N) : FVec F S400x128 .f32 :=
  k0_pay2 (blk0_0 m c t) (s1val m c) (blk0_1 m c t) (s1val m c) (blk0_4 m c t)

/-- All of x1: row r is row r mod 400 of the tile of point r / 400. -/
def x1full (c : Dev nD) : Vec F S10000x128 .f32 := fun idx =>
  x1blk m c ⟨(idx 0).val / 400, by have := ValueIdx.idx2_lt0 idx; rw [N50]; omega⟩
    (ix2 (n0 := 400) (n1 := 128) ⟨(idx 0).val % 400, Nat.mod_lt _ (by norm_num)⟩ ⟨(idx 1).val, ValueIdx.idx2_lt1 idx⟩)

/-- s2 = x1 · W2, rounded to bf16. -/
def s2val (c : Dev nD) : FVec F S10000x64 .bf16 := k0_pay3 (x1full m c) (blk0_5 m c t25)

/-- Rows 400 j … 400 j + 399 of x1, j = t mod 25. -/
def x1s (c : Dev nD) (t : Fin cfg0.N) : Vec F S400x128 .f32 := fun y =>
  x1full m c (ix2 (n0 := 10000) (n1 := 128) ⟨400 * (t.val % 25) + (y 0).val, by have := ValueIdx.idx2_lt0 y; omega⟩ ⟨(y 1).val, ValueIdx.idx2_lt1 y⟩)

/-- The same rows of x2 = tanh(adj · s2 + b2). -/
def x2blk (c : Dev nD) (t : Fin cfg0.N) : FVec F S400x64 .f32 :=
  k0_pay5 (blk0_0 m c t) (s2val m c) (blk0_1 m c t) (s2val m c) (blk0_6 m c t)

/-- The same rows of the class head: (linear, batch norm, relu) twice, linear, log-softmax. -/
def out29 (c : Dev nD) (t : Fin cfg0.N) : FVec F S400x10 .f32 :=
  k0_pay12
    (k0_pay8 (k0_pay6 (x1s m c t) (blk0_0 m c t) (s2val m c) (blk0_1 m c t) (s2val m c) (blk0_6 m c t) (blk0_7 m c t) (blk0_8 m c t))
      (k0_pay7 (blk0_9 m c t)) (blk0_10 m c t) (blk0_11 m c t) (blk0_12 m c t) (blk0_13 m c t) (blk0_14 m c t) (blk0_15 m c t))
    (k0_pay9 (blk0_16 m c t)) (k0_pay10 (blk0_17 m c t)) (k0_pay11 (blk0_18 m c t)) (blk0_19 m c t) (blk0_20 m c t) (blk0_21 m c t)

/-- The same rows of the reconstruction head: (linear, relu) twice, linear. -/
def out30 (c : Dev nD) (t : Fin cfg0.N) : FVec F S400x128 .f32 :=
  k0_pay4 (x2blk m c t) (k0_pay13 (x1s m c t) (blk0_22 m c t)) (blk0_23 m c t) (blk0_24 m c t) (blk0_25 m c t) (blk0_26 m c t) (blk0_27 m c t) (blk0_28 m c t)

/-- The same rows of [x1 | x2]: columns 0 … 127 from x1, 128 … 191 from x2. -/
def out31 (c : Dev nD) (t : Fin cfg0.N) : Vec F S400x192 .f32 :=
  View.canon (Val := Elt F) [⟨Rect.unit (s := S400x192) ![0, 128] S400x64.size Facts₀.inb_S400x192_S400x64_0_128, x2blk m c t⟩,
    ⟨Rect.unit (s := S400x192) ![0, 0] S400x128.size Facts₀.inb_S400x192_S400x128_0_0, x1s m c t⟩]

/-- Before point n: s1 is formed once n ≥ 1, the rows of x1 below 400 · min n 25 are final, s2 is formed once n ≥ 26. -/
def Inv (c : Dev nD) (n : ℕ) (a : Vec F S10000x128 .bf16) (b : Vec F S10000x128 .f32) (e : Vec F S10000x64 .bf16) : Prop :=
  (1 ≤ n → a = s1val m c) ∧ (∀ idx : S10000x128.Idx, (idx 0).val < 400 * min n 25 → b idx = x1full m c idx) ∧ (26 ≤ n → e = s2val m c)

def PhiS (c : Dev nD) (n : ℕ) : sProp 𝕄 :=
  iprop(iprop(∃ a, ∃ b, ∃ e, ⌜Inv m c n a b e⌝ ∗ owns (c : Thread nD τ) scM0_0 fullShare a ∗ owns (c : Thread nD τ) scM0_1 fullShare b ∗ owns (c : Thread nD τ) scM0_2 fullShare e) ∗ (∃ r, prngReg c r))

/-- The adjacency is the array of windows 0 and 1: its full share is split between the two. -/
def shareOf (w : Fin cfg0.W) : PosShare TreeShare :=
  if w.val = 0 then fullShare.left else if w.val = 1 then fullShare.right else fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => out29 m c t
    | ⟨30, _⟩ => out30 m c t
    | ⟨31, _⟩ => out31 m c t
    | ⟨_ + 32, h⟩ => absurd h (Nat.not_lt.2 (Nat.le_add_left _ _))
  Φ t := PhiS m c t.val
  q w := shareOf w
  owed _ := 0

theorem live_out : ∀ t : Fin cfg0.N, ∀ w : Fin 32, 29 ≤ w.val → 25 ≤ t.val → cfg0.idle w (grid0.coords t) = false := by decide +kernel
theorem idle_out1 : ∀ t : Fin cfg0.N, ∀ w : Fin 32, 29 ≤ w.val → t.val < 25 → cfg0.idle w (grid0.coords t) = true := by decide +kernel

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

end Cert.Kernel.Hand

end
-- ==== Proof.KB.Tables2.lean ====
import proofs.«167823_g73521250173546_cont_sun_c4_545_21_alg».proof.Proof.KB.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

theorem after0_29 : (dats m 0 c).after 29 t = out29 m c t := by dsimp only [dats]
theorem after0_30 : (dats m 0 c).after 30 t = out30 m c t := by dsimp only [dats]
theorem after0_31 : (dats m 0 c).after 31 t = out31 m c t := by dsimp only [dats]

theorem before0_0 (d) : (dats m 0 c).before 0 t d = iblk m c 0 t :=
  ((dats m 0 c).before_in_eq_fetched 0 rfl (fun _ => rfl) (fun _ _ _ => rfl) (fun _ => rfl) t d).trans rfl
theorem before0_1 (d) : (dats m 0 c).before 1 t d = iblk m c 1 t :=
  ((dats m 0 c).before_in_eq_fetched 1 rfl (fun _ => rfl) (fun _ _ _ => rfl) (fun _ => rfl) t d).trans rfl
theorem before0_2 (d) : (dats m 0 c).before 2 t d = iblk m c 2 t :=
  ((dats m 0 c).before_in_eq_fetched 2 rfl (fun _ => rfl) (fun _ _ _ => rfl) (fun _ => rfl) t d).trans rfl
theorem before0_3 (d) : (dats m 0 c).before 3 t d = iblk m c 3 t :=
  ((dats m 0 c).before_in_eq_fetched 3 rfl (fun _ => rfl) (fun _ _ _ => rfl) (fun _ => rfl) t d).trans rfl
theorem before0_4 (d) : (dats m 0 c).before 4 t d = iblk m c 4 t :=
  ((dats m 0 c).before_in_eq_fetched 4 rfl (fun _ => rfl) (fun _ _ _ => rfl) (fun _ => rfl) t d).trans rfl
theorem before0_5 (d) : (dats m 0 c).before 5 t d = iblk m c 5 t :=
  ((dats m 0 c).before_in_eq_fetched 5 rfl (fun _ => rfl) (fun _ _ _ => rfl) (fun _ => rfl) t d).trans rfl
theorem before0_6 (d) : (dats m 0 c).before 6 t d = iblk m c 6 t :=
  ((dats m 0 c).before_in_eq_fetched 6 rfl (fun _ => rfl) (fun _ _ _ => rfl) (fun _ => rfl) t d).trans rfl
theorem before0_7 (d) : (dats m 0 c).before 7 t d = iblk m c 7 t :=
  ((dats m 0 c).before_in_eq_fetched 7 rfl (fun _ => rfl) (fun _ _ _ => rfl) (fun _ => rfl) t d).trans rfl
theorem before0_8 (d) : (dats m 0 c).before 8 t d = iblk m c 8 t :=
  ((dats m 0 c).before_in_eq_fetched 8 rfl (fun _ => rfl) (fun _ _ _ => rfl) (fun _ => rfl) t d).trans rfl
theorem before0_9 (d) : (dats m 0 c).before 9 t d = iblk m c 9 t :=
  ((dats m 0 c).before_in_eq_fetched 9 rfl (fun _ => rfl) (fun _ _ _ => rfl) (fun _ => rfl) t d).trans rfl
theorem before0_10 (d) : (dats m 0 c).before 10 t d = iblk m c 10 t :=
  ((dats m 0 c).before_in_eq_fetched 10 rfl (fun _ => rfl) (fun _ _ _ => rfl) (fun _ => rfl) t d).trans rfl
theorem before0_11 (d) : (dats m 0 c).before 11 t d = iblk m c 11 t :=
  ((dats m 0 c).before_in_eq_fetched 11 rfl (fun _ => rfl) (fun _ _ _ => rfl) (fun _ => rfl) t d).trans rfl
theorem before0_12 (d) : (dats m 0 c).before 12 t d = iblk m c 12 t :=
  ((dats m 0 c).before_in_eq_fetched 12 rfl (fun _ => rfl) (fun _ _ _ => rfl) (fun _ => rfl) t d).trans rfl
theorem before0_13 (d) : (dats m 0 c).before 13 t d = iblk m c 13 t :=
  ((dats m 0 c).before_in_eq_fetched 13 rfl (fun _ => rfl) (fun _ _ _ => rfl) (fun _ => rfl) t d).trans rfl
theorem before0_14 (d) : (dats m 0 c).before 14 t d = iblk m c 14 t :=
  ((dats m 0 c).before_in_eq_fetched 14 rfl (fun _ => rfl) (fun _ _ _ => rfl) (fun _ => rfl) t d).trans rfl
theorem before0_15 (d) : (dats m 0 c).before 15 t d = iblk m c 15 t :=
  ((dats m 0 c).before_in_eq_fetched 15 rfl (fun _ => rfl) (fun _ _ _ => rfl) (fun _ => rfl) t d).trans rfl
theorem before0_16 (d) : (dats m 0 c).before 16 t d = iblk m c 16 t :=
  ((dats m 0 c).before_in_eq_fetched 16 rfl (fun _ => rfl) (fun _ _ _ => rfl) (fun _ => rfl) t d).trans rfl
theorem before0_17 (d) : (dats m 0 c).before 17 t d = iblk m c 17 t :=
  ((dats m 0 c).before_in_eq_fetched 17 rfl (fun _ => rfl) (fun _ _ _ => rfl) (fun _ => rfl) t d).trans rfl
theorem before0_18 (d) : (dats m 0 c).before 18 t d = iblk m c 18 t :=
  ((dats m 0 c).before_in_eq_fetched 18 rfl (fun _ => rfl) (fun _ _ _ => rfl) (fun _ => rfl) t d).trans rfl
theorem before0_19 (d) : (dats m 0 c).before 19 t d = iblk m c 19 t :=
  ((dats m 0 c).before_in_eq_fetched 19 rfl (fun _ => rfl) (fun _ _ _ => rfl) (fun _ => rfl) t d).trans rfl
theorem before0_20 (d) : (dats m 0 c).before 20 t d = iblk m c 20 t :=
  ((dats m 0 c).before_in_eq_fetched 20 rfl (fun _ => rfl) (fun _ _ _ => rfl) (fun _ => rfl) t d).trans rfl
theorem before0_21 (d) : (dats m 0 c).before 21 t d = iblk m c 21 t :=
  ((dats m 0 c).before_in_eq_fetched 21 rfl (fun _ => rfl) (fun _ _ _ => rfl) (fun _ => rfl) t d).trans rfl
theorem before0_22 (d) : (dats m 0 c).before 22 t d = iblk m c 22 t :=
  ((dats m 0 c).before_in_eq_fetched 22 rfl (fun _ => rfl) (fun _ _ _ => rfl) (fun _ => rfl) t d).trans rfl
theorem before0_23 (d) : (dats m 0 c).before 23 t d = iblk m c 23 t :=
  ((dats m 0 c).before_in_eq_fetched 23 rfl (fun _ => rfl) (fun _ _ _ => rfl) (fun _ => rfl) t d).trans rfl
theorem before0_24 (d) : (dats m 0 c).before 24 t d = iblk m c 24 t :=
  ((dats m 0 c).before_in_eq_fetched 24 rfl (fun _ => rfl) (fun _ _ _ => rfl) (fun _ => rfl) t d).trans rfl
theorem before0_25 (d) : (dats m 0 c).before 25 t d = iblk m c 25 t :=
  ((dats m 0 c).before_in_eq_fetched 25 rfl (fun _ => rfl) (fun _ _ _ => rfl) (fun _ => rfl) t d).trans rfl
theorem before0_26 (d) : (dats m 0 c).before 26 t d = iblk m c 26 t :=
  ((dats m 0 c).before_in_eq_fetched 26 rfl (fun _ => rfl) (fun _ _ _ => rfl) (fun _ => rfl) t d).trans rfl
theorem before0_27 (d) : (dats m 0 c).before 27 t d = iblk m c 27 t :=
  ((dats m 0 c).before_in_eq_fetched 27 rfl (fun _ => rfl) (fun _ _ _ => rfl) (fun _ => rfl) t d).trans rfl
theorem before0_28 (d) : (dats m 0 c).before 28 t d = iblk m c 28 t :=
  ((dats m 0 c).before_in_eq_fetched 28 rfl (fun _ => rfl) (fun _ _ _ => rfl) (fun _ => rfl) t d).trans rfl

theorem leaves0_in (c : Dev nD) (w : Fin 32) (hw : w.val < 29) (t : Fin cfg0.N) :
    (dats m 0 c).leavesExact w t = owns (c : Thread nD τ) ((cfg0.win w).stage (cfg0.slots t w)) fullShare ((dats m 0 c).after w t) := by
  unfold Dat.leavesExact; rw [live_in t w hw]
theorem leaves0_0 : (dats m 0 c).leavesExact 0 t = owns (c : Thread nD τ) (ms0_0 t) fullShare (iblk m c 0 t) := leaves0_in m c 0 (by decide) t
theorem leaves0_1 : (dats m 0 c).leavesExact 1 t = owns (c : Thread nD τ) (ms0_1 t) fullShare (iblk m c 1 t) := leaves0_in m c 1 (by decide) t
theorem leaves0_2 : (dats m 0 c).leavesExact 2 t = owns (c : Thread nD τ) (ms0_2 t) fullShare (iblk m c 2 t) := leaves0_in m c 2 (by decide) t
theorem leaves0_3 : (dats m 0 c).leavesExact 3 t = owns (c : Thread nD τ) (ms0_3 t) fullShare (iblk m c 3 t) := leaves0_in m c 3 (by decide) t
theorem leaves0_4 : (dats m 0 c).leavesExact 4 t = owns (c : Thread nD τ) (ms0_4 t) fullShare (iblk m c 4 t) := leaves0_in m c 4 (by decide) t
theorem leaves0_5 : (dats m 0 c).leavesExact 5 t = owns (c : Thread nD τ) (ms0_5 t) fullShare (iblk m c 5 t) := leaves0_in m c 5 (by decide) t
theorem leaves0_6 : (dats m 0 c).leavesExact 6 t = owns (c : Thread nD τ) (ms0_6 t) fullShare (iblk m c 6 t) := leaves0_in m c 6 (by decide) t
theorem leaves0_7 : (dats m 0 c).leavesExact 7 t = owns (c : Thread nD τ) (ms0_7 t) fullShare (iblk m c 7 t) := leaves0_in m c 7 (by decide) t
theorem leaves0_8 : (dats m 0 c).leavesExact 8 t = owns (c : Thread nD τ) (ms0_8 t) fullShare (iblk m c 8 t) := leaves0_in m c 8 (by decide) t
theorem leaves0_9 : (dats m 0 c).leavesExact 9 t = owns (c : Thread nD τ) (ms0_9 t) fullShare (iblk m c 9 t) := leaves0_in m c 9 (by decide) t
theorem leaves0_10 : (dats m 0 c).leavesExact 10 t = owns (c : Thread nD τ) (ms0_10 t) fullShare (iblk m c 10 t) := leaves0_in m c 10 (by decide) t
theorem leaves0_11 : (dats m 0 c).leavesExact 11 t = owns (c : Thread nD τ) (ms0_11 t) fullShare (iblk m c 11 t) := leaves0_in m c 11 (by decide) t
theorem leaves0_12 : (dats m 0 c).leavesExact 12 t = owns (c : Thread nD τ) (ms0_12 t) fullShare (iblk m c 12 t) := leaves0_in m c 12 (by decide) t
theorem leaves0_13 : (dats m 0 c).leavesExact 13 t = owns (c : Thread nD τ) (ms0_13 t) fullShare (iblk m c 13 t) := leaves0_in m c 13 (by decide) t
theorem leaves0_14 : (dats m 0 c).leavesExact 14 t = owns (c : Thread nD τ) (ms0_14 t) fullShare (iblk m c 14 t) := leaves0_in m c 14 (by decide) t
theorem leaves0_15 : (dats m 0 c).leavesExact 15 t = owns (c : Thread nD τ) (ms0_15 t) fullShare (iblk m c 15 t) := leaves0_in m c 15 (by decide) t
theorem leaves0_16 : (dats m 0 c).leavesExact 16 t = owns (c : Thread nD τ) (ms0_16 t) fullShare (iblk m c 16 t) := leaves0_in m c 16 (by decide) t
theorem leaves0_17 : (dats m 0 c).leavesExact 17 t = owns (c : Thread nD τ) (ms0_17 t) fullShare (iblk m c 17 t) := leaves0_in m c 17 (by decide) t
theorem leaves0_18 : (dats m 0 c).leavesExact 18 t = owns (c : Thread nD τ) (ms0_18 t) fullShare (iblk m c 18 t) := leaves0_in m c 18 (by decide) t
theorem leaves0_19 : (dats m 0 c).leavesExact 19 t = owns (c : Thread nD τ) (ms0_19 t) fullShare (iblk m c 19 t) := leaves0_in m c 19 (by decide) t
theorem leaves0_20 : (dats m 0 c).leavesExact 20 t = owns (c : Thread nD τ) (ms0_20 t) fullShare (iblk m c 20 t) := leaves0_in m c 20 (by decide) t
theorem leaves0_21 : (dats m 0 c).leavesExact 21 t = owns (c : Thread nD τ) (ms0_21 t) fullShare (iblk m c 21 t) := leaves0_in m c 21 (by decide) t
theorem leaves0_22 : (dats m 0 c).leavesExact 22 t = owns (c : Thread nD τ) (ms0_22 t) fullShare (iblk m c 22 t) := leaves0_in m c 22 (by decide) t
theorem leaves0_23 : (dats m 0 c).leavesExact 23 t = owns (c : Thread nD τ) (ms0_23 t) fullShare (iblk m c 23 t) := leaves0_in m c 23 (by decide) t
theorem leaves0_24 : (dats m 0 c).leavesExact 24 t = owns (c : Thread nD τ) (ms0_24 t) fullShare (iblk m c 24 t) := leaves0_in m c 24 (by decide) t
theorem leaves0_25 : (dats m 0 c).leavesExact 25 t = owns (c : Thread nD τ) (ms0_25 t) fullShare (iblk m c 25 t) := leaves0_in m c 25 (by decide) t
theorem leaves0_26 : (dats m 0 c).leavesExact 26 t = owns (c : Thread nD τ) (ms0_26 t) fullShare (iblk m c 26 t) := leaves0_in m c 26 (by decide) t
theorem leaves0_27 : (dats m 0 c).leavesExact 27 t = owns (c : Thread nD τ) (ms0_27 t) fullShare (iblk m c 27 t) := leaves0_in m c 27 (by decide) t
theorem leaves0_28 : (dats m 0 c).leavesExact 28 t = owns (c : Thread nD τ) (ms0_28 t) fullShare (iblk m c 28 t) := leaves0_in m c 28 (by decide) t

theorem leaves0_29_live (h : 25 ≤ t.val) : (dats m 0 c).leavesExact 29 t = owns (c : Thread nD τ) (ms0_29 t) fullShare (out29 m c t) := by
  unfold Dat.leavesExact; rw [live_out t 29 (by decide) h, after0_29]
theorem leaves0_29_idle (h : t.val < 25) : (dats m 0 c).leavesExact 29 t = iprop(∃ d, owns (c : Thread nD τ) (ms0_29 t) fullShare ((dats m 0 c).before 29 t d)) :=
  Dat.leavesExact_idle (dats m 0 c) 29 t (idle_out1 t 29 (by decide) h) (noflush_out t 29 (by decide) h)
theorem leaves0_30_live (h : 25 ≤ t.val) : (dats m 0 c).leavesExact 30 t = owns (c : Thread nD τ) (ms0_30 t) fullShare (out30 m c t) := by
  unfold Dat.leavesExact; rw [live_out t 30 (by decide) h, after0_30]
theorem leaves0_30_idle (h : t.val < 25) : (dats m 0 c).leavesExact 30 t = iprop(∃ d, owns (c : Thread nD τ) (ms0_30 t) fullShare ((dats m 0 c).before 30 t d)) :=
  Dat.leavesExact_idle (dats m 0 c) 30 t (idle_out1 t 30 (by decide) h) (noflush_out t 30 (by decide) h)
theorem leaves0_31_live (h : 25 ≤ t.val) : (dats m 0 c).leavesExact 31 t = owns (c : Thread nD τ) (ms0_31 t) fullShare (out31 m c t) := by
  unfold Dat.leavesExact; rw [live_out t 31 (by decide) h, after0_31]
theorem leaves0_31_idle (h : t.val < 25) : (dats m 0 c).leavesExact 31 t = iprop(∃ d, owns (c : Thread nD τ) (ms0_31 t) fullShare ((dats m 0 c).before 31 t d)) :=
  Dat.leavesExact_idle (dats m 0 c) 31 t (idle_out1 t 31 (by decide) h) (noflush_out t 31 (by decide) h)

end Cert.Kernel.Hand

end
-- ==== Proof.KB.BodyDefs.lean ====
import proofs.«167823_g73521250173546_cont_sun_c4_545_21_alg».proof.Proof.KB.Tables2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body obligation's two sides at point t with the product over the 32 windows written out. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t)

end Cert.Kernel.Hand

end
-- ==== Proof.KB.InvStep.lean ====
import proofs.«167823_g73521250173546_cont_sun_c4_545_21_alg».proof.Proof.KB.Data
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row below 400 t is left as it was; a row r in [400 t, 400 t + 400) lies in the tile of point r / 400 = t, at row r % 400. -/
theorem inv_step (c : Dev nD) (t : Fin cfg0.N) (ht : t.val < 25) (b : Vec F S10000x128 .f32)
    (hb : ∀ idx : S10000x128.Idx, (idx 0).val < 400 * t.val → b idx = x1full m c idx)
    (off : Fin 2 → ℕ) (hoff : off = ![400 * t.val, 0]) (hinb : ∀ a, off a + S400x128.size a ≤ S10000x128.size a)
    (hw : scM0_1.IsWhole) :
    ∀ idx : S10000x128.Idx, (idx 0).val < 400 * (t.val + 1) →
      scM0_1.view.read (Elt F) (scM0_1.view.writes (Elt F) (hw.unread b)
        [⟨Rect.unit (s := S10000x128) off S400x128.size hinb, x1blk m c t⟩]) idx = x1full m c idx := by
  intro idx hlt
  by_cases h : (idx 0).val < 400 * t.val
  · refine (View.read_writes_cons_rows_of_not_mem (W := 400) scM0_1.view _ hinb _ [] idx hoff rfl (Or.inl h)).trans ?_
    rw [View.writes_nil, hw.read_unread]
    exact hb idx h
  · have hq : (⟨(idx 0).val / 400, by have := ValueIdx.idx2_lt0 idx; rw [N50]; omega⟩ : Fin cfg0.N) = t :=
      Fin.ext (by show (idx 0).val / 400 = t.val; omega)
    refine (View.read_writes_cons_rows_of_mem scM0_1.view _ hinb _ [] idx
      (ix2 (n0 := 400) (n1 := 128) ⟨(idx 0).val % 400, Nat.mod_lt _ (by norm_num)⟩ ⟨(idx 1).val, ValueIdx.idx2_lt1 idx⟩) hoff
      (by show (idx 0).val = 400 * t.val + (idx 0).val % 400; omega) rfl).trans ?_
    unfold x1full
    rw [hq]

/-- Every row is below 400 * 25 = 10000. -/
theorem inv_full (c : Dev nD) (b : Vec F S10000x128 .f32)
    (hb : ∀ idx : S10000x128.Idx, (idx 0).val < 400 * 25 → b idx = x1full m c idx) : b = x1full m c :=
  funext fun idx => hb idx (by have := ValueIdx.idx2_lt0 idx; omega)

end Cert.Kernel.Hand

end
-- ==== Proof.KB.RunLib.lean ====
import proofs.«167823_g73521250173546_cont_sun_c4_545_21_alg».proof.Proof.KB.Conds
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- Reading a whole memref is a bijection, so owning it at `X` is holding it at the one raw contents that read `X`. -/
theorem owns_eq_unread (c : Dev nD) {sp : Space} {sh : Shape} {e : EltTy} {m : Memref sig .tc sp sh e} (h : m.IsWhole)
    (q : PosShare TreeShare) (X : Vec F sh e) :
    (owns (c : Thread nD τ) m q X : sProp 𝕄) = iprop(m.view.loc (c : Thread nD τ) ↦[m.view.set]{q} h.unread X) := by
  have h₁ : (owns (c : Thread nD τ) m q X : sProp 𝕄) ⊢ iprop(m.view.loc (c : Thread nD τ) ↦[m.view.set]{q} h.unread X) := by
    unfold owns
    iintro ⟨%f, %hf, H⟩
    obtain rfl := h.eq_unread hf
    iexact H
  have h₂ : (iprop(m.view.loc (c : Thread nD τ) ↦[m.view.set]{q} h.unread X) : sProp 𝕄) ⊢ owns (c : Thread nD τ) m q X := by
    unfold owns
    iintro H
    iexists _; isplitr; · ipureintro; exact h.read_unread _
    iexact H
  exact BI.equiv_iff.mp ⟨h₁, h₂⟩

theorem off00 : (![0, 0] : Fin 2 → Nat) = fun _ => 0 := funext fun a => by fin_cases a <;> rfl

/-- A load through the whole rectangle of a rank-2 shape reads the contents, whatever the extents. -/
theorem ld_whole2 {e : EltTy} (sz : Fin 2 → Nat) (inb : ∀ a, (![0, 0] : Fin 2 → Nat) a + sz a ≤ sz a) (X : Vec F ⟨2, sz⟩ e) :
    View.ld X (Rect.unit (s := ⟨2, sz⟩) ![0, 0] sz inb) = X := View.ld_unit_zero (S := ⟨2, sz⟩) off00 inb X

/-- The same load of what one store through that rectangle left reads the stored payload. -/
theorem readCov_whole2 {e : EltTy} {κ : Kind} {sp : Space} (sz : Fin 2 → Nat) (v : View sig κ sp ⟨2, sz⟩ e)
    (inb : ∀ a, (![0, 0] : Fin 2 → Nat) a + sz a ≤ sz a) (w : Vec F ⟨2, sz⟩ e) :
    v.readCov [(⟨Rect.unit (s := ⟨2, sz⟩) ![0, 0] sz inb, w⟩ : View.Piece (Elt F) ⟨2, sz⟩ e)] (Rect.unit (s := ⟨2, sz⟩) ![0, 0] sz inb).toLoadRect = w :=
  View.readCov_unit_zero (S := ⟨2, sz⟩) v off00 inb w

end Cert.Kernel.Hand

end
-- ==== Proof.KB.RunA.lean ====
import proofs.«167823_g73521250173546_cont_sun_c4_545_21_alg».proof.Proof.KB.RunLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S128x256 .f32) (harg9 : arg9.IsWhole) (arg10 : Memref sig .tc .vmem S64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S128x10 .f32) (harg22 : arg22.IsWhole) (arg23 : Memref sig .tc .vmem S1x10 .f32) (harg23 : arg23.IsWhole) (arg24 : Memref sig .tc .vmem S128x256 .f32) (harg24 : arg24.IsWhole) (arg25 : Memref sig .tc .vmem S64x256 .f32) (harg25 : arg25.IsWhole) (arg26 : Memref sig .tc .vmem S1x256 .f32) (harg26 : arg26.IsWhole) (arg27 : Memref sig .tc .vmem S256x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S400x10 .f32) (harg31 : arg31.IsWhole) (arg32 : Memref sig .tc .vmem S400x128 .f32) (harg32 : arg32.IsWhole) (arg33 : Memref sig .tc .vmem S400x192 .f32) (harg33 : arg33.IsWhole) (arg34 : Memref sig .tc .vmem S10000x128 .bf16) (harg34 : arg34.IsWhole) (arg35 : Memref sig .tc .vmem S10000x128 .f32) (harg35 : arg35.IsWhole) (arg36 : Memref sig .tc .vmem S10000x64 .bf16) (harg36 : arg36.IsWhole)
  (h1 : cond1 i) (h2 : cond2 i) (h3 : ¬cond3 i) (h4 : ¬cond4 i)
  (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32)
  (xs1 : Vec F S10000x128 .f32)
include h1 h2 h3 h4

set_option maxHeartbeats 1000000 in
/-- At the first point of sweep 1 the body writes the support whole and the first row tile of activations; every other buffer comes back unchanged. -/
noncomputable def kernelRun0_A :
    Σ' (LS0 : List (View.Piece (Elt F) S10000x128 .bf16)), { LS1 : List (View.Piece (Elt F) S10000x128 .f32) //
      ∀ (xi29 : Vec F S400x10 .f32) (xi30 : Vec F S400x128 .f32) (xi31 : Vec F S400x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
            ∗ owns (c : Thread nD τ) arg31 fullShare xi29 ∗ owns (c : Thread nD τ) arg32 fullShare xi30 ∗ owns (c : Thread nD τ) arg33 fullShare xi31
            ∗ (∃ d, owns (c : Thread nD τ) arg34 fullShare d) ∗ owns (c : Thread nD τ) arg35 fullShare xs1 ∗ (∃ d, owns (c : Thread nD τ) arg36 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
                  ∗ owns (c : Thread nD τ) arg31 fullShare xi29 ∗ owns (c : Thread nD τ) arg32 fullShare xi30 ∗ owns (c : Thread nD τ) arg33 fullShare xi31
                  ∗ (∃ f, arg34.view.loc (c : Thread nD τ) ↦[arg34.view.set]{fullShare} arg34.view.writes (Elt F) f LS0)
                  ∗ (arg35.view.loc (c : Thread nD τ) ↦[arg35.view.set]{fullShare} arg35.view.writes (Elt F) (harg35.unread xs1) LS1)
                  ∗ (∃ d, owns (c : Thread nD τ) arg36 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, fun xi29 xi30 xi31 E K => ?run⟩
  case run =>
    simp only [owns_eq_unread c harg2, owns_eq_unread c harg3, owns_eq_unread c harg4, owns_eq_unread c harg5, owns_eq_unread c harg6, owns_eq_unread c harg34, owns_eq_unread c harg35]
    iintro ⟨H0, H1, H2, H3, H4, H5, H6, H7, H8, H9, H10, H11, H12, H13, H14, H15, H16, H17, H18, H19, H20, H21, H22, H23, H24, H25, H26, H27, H28, H29, H30, H31, ⟨%dHS0, HS0⟩, HS1, HS2, Hk⟩
    simp only [cc0__body_eq_skeleton]; unfold cc0__body_skel
    sl_exec (disch := first | exact h1 | exact h2 | exact h3 | exact h4)
    sl_step
    iapply Hk
    iframe
    iexists _; iexact HS0

set_option maxHeartbeats 1000000 in
theorem kernelRun0_A_pieces0 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs1).1
      = [⟨Rect.unit (s := S10000x128) ![0, 0] S10000x128.size inb_S10000x128_S10000x128_0_0, k0_pay1 x2 x3⟩] := by
  unfold kernelRun0_A; dsimp only
  sl_unfold_run_names
  simp only [View.readAt_eq_ld, Memref.IsWhole.read_unread, ld_whole2]

set_option maxHeartbeats 1000000 in
theorem kernelRun0_A_pieces1 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs1).2.1
      = [⟨Rect.unit (s := S10000x128) (k0_off1 i) S400x128.size (k0_off1_inb i h2), k0_pay2 x0 (k0_pay1 x2 x3) x1 (k0_pay1 x2 x3) x4⟩] := by
  unfold kernelRun0_A; dsimp only
  sl_unfold_run_names
  simp only [View.readAt_eq_ld, Memref.IsWhole.read_unread, ld_whole2, readCov_whole2]

end Cert.Kernel.Hand

end
-- ==== Proof.KB.OutRead.lean ====
import proofs.«167823_g73521250173546_cont_sun_c4_545_21_alg».proof.Proof.KB.Data
import Idealize.ShloMosaic.Lib.Pipeline.Value
import Idealize.ShloMosaic.Lib.Pipeline.FrameBody
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.Kernel Cert.Kernel.Gen

variable {F : FTy → Type} [FloatOps F]

variable (m : (ℓ : Loc nD τ sig) → Buf (Elt F) ℓ)

/-- A unit-stride rectangle places y at the offsets plus y, and the offsets here are row 400 (t % 25), column 0. -/
theorem x1s_ld (c : Dev nD) (t : Fin cfg0.N) (ht : 25 ≤ t.val)
    (hinb : ∀ a, k0_off2 (grid0.coords t) a + S400x128.size a ≤ S10000x128.size a) :
    View.ld (Val := Elt F) (x1full m c) (Rect.unit (s := S10000x128) (k0_off2 (grid0.coords t)) S400x128.size hinb)
      = x1s m c t := by
  revert hinb
  rw [off2_val t]
  intro hinb
  funext y
  show x1full m c ((Rect.unit (s := S10000x128) ![400 * (t.val % 25), 0] S400x128.size hinb).idx y) = x1s m c t y
  unfold x1s
  refine congrArg (x1full m c) (funext fun a => Fin.ext ?_)
  match a with
  | ⟨0, _⟩ => show 400 * (t.val % 25) + 1 * (y 0).val = 400 * (t.val % 25) + (y 0).val; rw [Nat.one_mul]
  | ⟨1, _⟩ => show 0 + 1 * (y 1).val = (y 1).val; rw [Nat.one_mul, Nat.zero_add]

/-- One piece that is the whole shape at zero offsets covers every index, so the read after the write is the payload. -/
theorem read_writes_whole {κ : Kind} {sp : Space} {S : Shape} {e : EltTy} (v : View sig κ sp S e)
    (f : v.ty.Contents (Elt F)) {off : Fin S.rank → ℕ} (hz : off = fun _ => 0)
    (inb : ∀ a, off a + S.size a ≤ S.size a) (w : S.Idx → Elt F e) :
    v.read (Elt F) (v.writes (Elt F) f [(⟨Rect.unit (s := S) off S.size inb, w⟩ : View.Piece (Elt F) S e)]) = w :=
  (View.read_writes_eq_canon v f [(⟨Rect.unit (s := S) off S.size inb, w⟩ : View.Piece (Elt F) S e)]
    (fun y => ⟨(⟨Rect.unit (s := S) off S.size inb, w⟩ : View.Piece (Elt F) S e), List.mem_singleton_self _,
      View.mem_set_unit_zero hz inb y⟩)).trans (View.canon_unit_zero hz inb w)

/-- Cut into column blocks of width 64 the two pieces tile the [400, 192] shape. -/
theorem read_writes_cat {κ : Kind} {sp : Space} (v : View sig κ sp S400x192 .f32) (f : v.ty.Contents (Elt F))
    (h₁ : ∀ a, (![0, 0] : Fin 2 → ℕ) a + S400x128.size a ≤ S400x192.size a)
    (h₂ : ∀ a, (![0, 128] : Fin 2 → ℕ) a + S400x64.size a ≤ S400x192.size a)
    (x1t : Vec F S400x128 .f32) (x2t : Vec F S400x64 .f32) :
    v.read (Elt F) (v.writes (Elt F) f [⟨Rect.unit (s := S400x192) ![0, 128] S400x64.size h₂, x2t⟩,
        ⟨Rect.unit (s := S400x192) ![0, 0] S400x128.size h₁, x1t⟩])
      = View.canon (Val := Elt F) [⟨Rect.unit (s := S400x192) ![0, 128] S400x64.size h₂, x2t⟩,
        ⟨Rect.unit (s := S400x192) ![0, 0] S400x128.size h₁, x1t⟩] :=
  View.read_writes_eq_canon v f _ (View.cover_of_tiledBy _ ![400, 64] (by sl_kernel_rfl))

end Cert.Kernel.Hand

end
-- ==== Proof.KB.BodyA.lean ====
import proofs.«167823_g73521250173546_cont_sun_c4_545_21_alg».proof.Proof.KB.BodyDefs
import proofs.«167823_g73521250173546_cont_sun_c4_545_21_alg».proof.Proof.KB.InvStep
import proofs.«167823_g73521250173546_cont_sun_c4_545_21_alg».proof.Proof.KB.RunA
import proofs.«167823_g73521250173546_cont_sun_c4_545_21_alg».proof.Proof.KB.OutRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_A (c : Dev nD) (t : Fin cfg0.N) (hA : t.val = 0) :
    bodyPre m c t ⊢ wp frame (wpE (defs₀ (F := F)) Variants.none c none) Set.univ (bodyAt0 t) (fun _ => bodyPost m c t) := by
  obtain rfl : t = t0 := Fin.ext hA
  have hB : (t0 : Fin cfg0.N).val < 25 := Nat.succ_pos 24
  have h1 : cond1 (grid0.coords t0) := (hcond1 t0).mpr rfl
  have h2 : cond2 (grid0.coords t0) := (hcond2 t0).mpr hB
  have h3 : ¬cond3 (grid0.coords t0) := fun h => by have := (hcond3 t0).mp h; exact absurd this (by decide)
  have h4 : ¬cond4 (grid0.coords t0) := fun h => by have := (hcond4 t0).mp h; exact absurd this (by decide)
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).owesAt () t0.succ = (dats m 0 c).owesAt () t0.castSucc from rfl, Phi_eq, Phi_eq]
  simp only [Fin.coe_castSucc, Fin.val_succ]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29_idle m c t0 hB, leaves0_30_idle m c t0 hB, leaves0_31_idle m c t0 hB]
  unfold PhiS
  iintro ⟨⟨⟨%a, %b, %e, %hInv, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((kernelRun0_A (F := F) c (h1 := h1) (h2 := h2) (h3 := h3) (h4 := h4) ..).2.2 _ _ _ Set.univ _)
  iframe H0 H1 H2 H3 H4 H5 H6 H7 H8 H9 H10 H11 H12 H13 H14 H15 H16 H17 H18 H19 H20 H21 H22 H23 H24 H25 H26 H27 H28 H29 H30 H31 HS1
  isplitl [HS0]; · iexists _; iexact HS0
  isplitl [HS2]; · iexists _; iexact HS2
  iintro ⟨H0, H1, H2, H3, H4, H5, H6, H7, H8, H9, H10, H11, H12, H13, H14, H15, H16, H17, H18, H19, H20, H21, H22, H23, H24, H25, H26, H27, H28, H29, H30, H31, ⟨%f0, HS0⟩, HS1, ⟨%e', HS2⟩⟩
  iframe Hg Ho H0 H1 H2 H3 H4 H5 H6 H7 H8 H9 H10 H11 H12 H13 H14 H15 H16 H17 H18 H19 H20 H21 H22 H23 H24 H25 H26 H27 H28
  isplitr [H29 H30 H31]
  · iexists _, _, e'
    iframe HS2
    isplitr
    swap
    · isplitl [HS0]
      · unfold owns; iexists _; iframe HS0; ipureintro; rfl
      unfold owns; iexists _; iframe HS1; ipureintro; rfl
    ipureintro
    refine ⟨fun _ => ?_, fun idx hidx => ?_, fun h => absurd h (by decide)⟩
    · rw [kernelRun0_A_pieces0, read_writes_whole _ _ off00 _ _]
      rfl
    · rw [kernelRun0_A_pieces1]
      rw [Nat.min_eq_left (by decide : (t0 : Fin cfg0.N).val + 1 ≤ 25)] at hidx
      refine inv_step m c t0 hB b (fun idx h => absurd h (by show ¬ (idx 0).val < 400 * 0; omega)) _ ?_ _ _ idx hidx
      rw [off1_val t0]; rfl
  isplitl [H29]; · iexists _; iexact H29
  isplitl [H30]; · iexists _; iexact H30
  iexists _; iexact H31

end Cert.Kernel.Hand

end
-- ==== Proof.KB.RunB.lean ====
import proofs.«167823_g73521250173546_cont_sun_c4_545_21_alg».proof.Proof.KB.RunLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S128x256 .f32) (harg9 : arg9.IsWhole) (arg10 : Memref sig .tc .vmem S64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S128x10 .f32) (harg22 : arg22.IsWhole) (arg23 : Memref sig .tc .vmem S1x10 .f32) (harg23 : arg23.IsWhole) (arg24 : Memref sig .tc .vmem S128x256 .f32) (harg24 : arg24.IsWhole) (arg25 : Memref sig .tc .vmem S64x256 .f32) (harg25 : arg25.IsWhole) (arg26 : Memref sig .tc .vmem S1x256 .f32) (harg26 : arg26.IsWhole) (arg27 : Memref sig .tc .vmem S256x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S400x10 .f32) (harg31 : arg31.IsWhole) (arg32 : Memref sig .tc .vmem S400x128 .f32) (harg32 : arg32.IsWhole) (arg33 : Memref sig .tc .vmem S400x192 .f32) (harg33 : arg33.IsWhole) (arg34 : Memref sig .tc .vmem S10000x128 .bf16) (harg34 : arg34.IsWhole) (arg35 : Memref sig .tc .vmem S10000x128 .f32) (harg35 : arg35.IsWhole) (arg36 : Memref sig .tc .vmem S10000x64 .bf16) (harg36 : arg36.IsWhole)
  (h1 : ¬cond1 i) (h2 : cond2 i) (h3 : ¬cond3 i) (h4 : ¬cond4 i)
  (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32)
  (xs0 : Vec F S10000x128 .bf16) (xs1 : Vec F S10000x128 .f32)
include h1 h2 h3 h4

set_option maxHeartbeats 1000000 in
/-- At a later point of sweep 1 the body writes one row tile of activations; every other buffer comes back unchanged. -/
noncomputable def kernelRun0_B :
    { LS1 : List (View.Piece (Elt F) S10000x128 .f32) //
      ∀ (xi29 : Vec F S400x10 .f32) (xi30 : Vec F S400x128 .f32) (xi31 : Vec F S400x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
            ∗ owns (c : Thread nD τ) arg31 fullShare xi29 ∗ owns (c : Thread nD τ) arg32 fullShare xi30 ∗ owns (c : Thread nD τ) arg33 fullShare xi31
            ∗ owns (c : Thread nD τ) arg34 fullShare xs0 ∗ owns (c : Thread nD τ) arg35 fullShare xs1 ∗ (∃ d, owns (c : Thread nD τ) arg36 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
                  ∗ owns (c : Thread nD τ) arg31 fullShare xi29 ∗ owns (c : Thread nD τ) arg32 fullShare xi30 ∗ owns (c : Thread nD τ) arg33 fullShare xi31
                  ∗ owns (c : Thread nD τ) arg34 fullShare xs0
                  ∗ (arg35.view.loc (c : Thread nD τ) ↦[arg35.view.set]{fullShare} arg35.view.writes (Elt F) (harg35.unread xs1) LS1)
                  ∗ (∃ d, owns (c : Thread nD τ) arg36 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, fun xi29 xi30 xi31 E K => ?run⟩
  case run =>
    simp only [owns_eq_unread c harg2, owns_eq_unread c harg3, owns_eq_unread c harg6, owns_eq_unread c harg34, owns_eq_unread c harg35]
    iintro ⟨H0, H1, H2, H3, H4, H5, H6, H7, H8, H9, H10, H11, H12, H13, H14, H15, H16, H17, H18, H19, H20, H21, H22, H23, H24, H25, H26, H27, H28, H29, H30, H31, HS0, HS1, HS2, Hk⟩
    simp only [cc0__body_eq_skeleton]; unfold cc0__body_skel
    sl_exec (disch := first | exact h1 | exact h2 | exact h3 | exact h4)
    sl_step
    iapply Hk
    iframe

set_option maxHeartbeats 1000000 in
theorem kernelRun0_B_pieces :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1).1
      = [⟨Rect.unit (s := S10000x128) (k0_off1 i) S400x128.size (k0_off1_inb i h2), k0_pay2 x0 xs0 x1 xs0 x4⟩] := by
  unfold kernelRun0_B; dsimp only
  simp only [View.readAt_eq_ld, Memref.IsWhole.read_unread, ld_whole2]

end Cert.Kernel.Hand

end
-- ==== Proof.KB.BodyB.lean ====
import proofs.«167823_g73521250173546_cont_sun_c4_545_21_alg».proof.Proof.KB.BodyDefs
import proofs.«167823_g73521250173546_cont_sun_c4_545_21_alg».proof.Proof.KB.InvStep
import proofs.«167823_g73521250173546_cont_sun_c4_545_21_alg».proof.Proof.KB.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_B (c : Dev nD) (t : Fin cfg0.N) (h0 : t.val ≠ 0) (hB : t.val < 25) :
    bodyPre m c t ⊢ wp frame (wpE (defs₀ (F := F)) Variants.none c none) Set.univ (bodyAt0 t) (fun _ => bodyPost m c t) := by
  have h1 : ¬cond1 (grid0.coords t) := fun h => h0 ((hcond1 t).mp h)
  have h2 : cond2 (grid0.coords t) := (hcond2 t).mpr hB
  have h3 : ¬cond3 (grid0.coords t) := fun h => by have := (hcond3 t).mp h; omega
  have h4 : ¬cond4 (grid0.coords t) := fun h => by have := (hcond4 t).mp h; omega
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).owesAt () t.succ = (dats m 0 c).owesAt () t.castSucc from rfl, Phi_eq, Phi_eq]
  simp only [Fin.coe_castSucc, Fin.val_succ]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29_idle m c t hB, leaves0_30_idle m c t hB, leaves0_31_idle m c t hB]
  unfold PhiS
  iintro ⟨⟨⟨%a, %b, %e, %hInv, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  obtain ⟨ha, hb, he⟩ := hInv
  obtain rfl : a = s1val m c := ha (by omega)
  iapply ((kernelRun0_B (F := F) c (h1 := h1) (h2 := h2) (h3 := h3) (h4 := h4) ..).2 _ _ _ Set.univ _)
  iframe H0 H1 H2 H3 H4 H5 H6 H7 H8 H9 H10 H11 H12 H13 H14 H15 H16 H17 H18 H19 H20 H21 H22 H23 H24 H25 H26 H27 H28 H29 H30 H31 HS0 HS1
  isplitl [HS2]; · iexists _; iexact HS2
  iintro ⟨H0, H1, H2, H3, H4, H5, H6, H7, H8, H9, H10, H11, H12, H13, H14, H15, H16, H17, H18, H19, H20, H21, H22, H23, H24, H25, H26, H27, H28, H29, H30, H31, HS0, HS1, ⟨%e', HS2⟩⟩
  iframe Hg Ho H0 H1 H2 H3 H4 H5 H6 H7 H8 H9 H10 H11 H12 H13 H14 H15 H16 H17 H18 H19 H20 H21 H22 H23 H24 H25 H26 H27 H28
  isplitr [H29 H30 H31]
  · iexists (s1val m c), _, e'
    iframe HS0 HS2
    isplitr
    swap
    · unfold owns; iexists _; iframe HS1; ipureintro; rfl
    ipureintro
    refine ⟨fun _ => rfl, fun idx hidx => ?_, fun h => absurd h (by omega)⟩
    rw [Nat.min_eq_left (by omega : t.val + 1 ≤ 25)] at hidx
    rw [Nat.min_eq_left (by omega : t.val ≤ 25)] at hb
    rw [kernelRun0_B_pieces]
    refine inv_step m c t hB b hb _ ?_ _ _ idx hidx
    rw [off1_val t, Nat.mod_eq_of_lt hB]
  isplitl [H29]; · iexists _; iexact H29
  isplitl [H30]; · iexists _; iexact H30
  iexists _; iexact H31

end Cert.Kernel.Hand

end
-- ==== Proof.KB.RunC.lean ====
import proofs.«167823_g73521250173546_cont_sun_c4_545_21_alg».proof.Proof.KB.RunLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S128x256 .f32) (harg9 : arg9.IsWhole) (arg10 : Memref sig .tc .vmem S64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S128x10 .f32) (harg22 : arg22.IsWhole) (arg23 : Memref sig .tc .vmem S1x10 .f32) (harg23 : arg23.IsWhole) (arg24 : Memref sig .tc .vmem S128x256 .f32) (harg24 : arg24.IsWhole) (arg25 : Memref sig .tc .vmem S64x256 .f32) (harg25 : arg25.IsWhole) (arg26 : Memref sig .tc .vmem S1x256 .f32) (harg26 : arg26.IsWhole) (arg27 : Memref sig .tc .vmem S256x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S400x10 .f32) (harg31 : arg31.IsWhole) (arg32 : Memref sig .tc .vmem S400x128 .f32) (harg32 : arg32.IsWhole) (arg33 : Memref sig .tc .vmem S400x192 .f32) (harg33 : arg33.IsWhole) (arg34 : Memref sig .tc .vmem S10000x128 .bf16) (harg34 : arg34.IsWhole) (arg35 : Memref sig .tc .vmem S10000x128 .f32) (harg35 : arg35.IsWhole) (arg36 : Memref sig .tc .vmem S10000x64 .bf16) (harg36 : arg36.IsWhole)
  (h1 : ¬cond1 i) (h2 : ¬cond2 i) (h3 : cond3 i) (h4 : cond4 i)
  (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32)
  (xs0 : Vec F S10000x128 .bf16) (xs1 : Vec F S10000x128 .f32)
include h1 h2 h3 h4

set_option maxHeartbeats 1000000 in
/-- At the first point of sweep 2 the body writes the second support whole and the three result blocks; every other buffer comes back unchanged. -/
noncomputable def kernelRun0_C :
    Σ' (L29 : List (View.Piece (Elt F) S400x10 .f32)) (L30 : List (View.Piece (Elt F) S400x128 .f32)) (L31 : List (View.Piece (Elt F) S400x192 .f32)), { LS2 : List (View.Piece (Elt F) S10000x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
            ∗ (∃ d, owns (c : Thread nD τ) arg31 fullShare d) ∗ (∃ d, owns (c : Thread nD τ) arg32 fullShare d) ∗ (∃ d, owns (c : Thread nD τ) arg33 fullShare d)
            ∗ owns (c : Thread nD τ) arg34 fullShare xs0 ∗ owns (c : Thread nD τ) arg35 fullShare xs1 ∗ (∃ d, owns (c : Thread nD τ) arg36 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
                  ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31)
                  ∗ owns (c : Thread nD τ) arg34 fullShare xs0 ∗ owns (c : Thread nD τ) arg35 fullShare xs1 ∗ (∃ f, arg36.view.loc (c : Thread nD τ) ↦[arg36.view.set]{fullShare} arg36.view.writes (Elt F) f LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, ?_, ?_, fun E K => ?run⟩
  case run =>
    simp (disch := assumption) only [owns_eq_unread]
    iintro ⟨H0, H1, H2, H3, H4, H5, H6, H7, H8, H9, H10, H11, H12, H13, H14, H15, H16, H17, H18, H19, H20, H21, H22, H23, H24, H25, H26, H27, H28, ⟨%dH29, H29⟩, ⟨%dH30, H30⟩, ⟨%dH31, H31⟩, HS0, HS1, ⟨%dHS2, HS2⟩, Hk⟩
    simp only [cc0__body_eq_skeleton]; unfold cc0__body_skel
    simp only [k0_part1_eq_skeleton, k0_part2_eq_skeleton, k0_part3_eq_skeleton]; unfold k0_part1_skel k0_part2_skel k0_part3_skel
    sl_exec (disch := first | exact h1 | exact h2 | exact h3 | exact h4)
    sl_step
    iapply Hk
    iframe
    isplitl [H29]; · iexists _; iexact H29
    isplitl [H30]; · iexists _; iexact H30
    isplitl [H31]; · iexists _; iexact H31
    iexists _; iexact HS2

set_option maxHeartbeats 1000000 in
theorem kernelRun0_C_pieces29 :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1).1
      = [⟨Rect.unit (s := S400x10) ![0, 0] S400x10.size inb_S400x10_S400x10_0_0,
          k0_pay12 (k0_pay8 (k0_pay6 (View.ld xs1 (Rect.unit (s := S10000x128) (k0_off2 i) S400x128.size (k0_off2_inb i h4))) x0 (k0_pay3 xs1 x5) x1 (k0_pay3 xs1 x5) x6 x7 x8) (k0_pay7 x9) x10 x11 x12 x13 x14 x15)
            (k0_pay9 x16) (k0_pay10 x17) (k0_pay11 x18) x19 x20 x21⟩] := by
  unfold kernelRun0_C; dsimp only
  sl_unfold_run_names
  simp only [View.readAt_eq_ld, Memref.IsWhole.read_unread, ld_whole2, readCov_whole2]

set_option maxHeartbeats 1000000 in
theorem kernelRun0_C_pieces30 :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1).2.1
      = [⟨Rect.unit (s := S400x128) ![0, 0] S400x128.size inb_S400x128_S400x128_0_0,
          k0_pay4 (k0_pay5 x0 (k0_pay3 xs1 x5) x1 (k0_pay3 xs1 x5) x6) (k0_pay13 (View.ld xs1 (Rect.unit (s := S10000x128) (k0_off2 i) S400x128.size (k0_off2_inb i h4))) x22) x23 x24 x25 x26 x27 x28⟩] := by
  unfold kernelRun0_C; dsimp only
  sl_unfold_run_names
  simp only [View.readAt_eq_ld, Memref.IsWhole.read_unread, ld_whole2, readCov_whole2]

set_option maxHeartbeats 1000000 in
theorem kernelRun0_C_pieces31 :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1).2.2.1
      = [⟨Rect.unit (s := S400x192) ![0, 128] S400x64.size inb_S400x192_S400x64_0_128, k0_pay5 x0 (k0_pay3 xs1 x5) x1 (k0_pay3 xs1 x5) x6⟩,
         ⟨Rect.unit (s := S400x192) ![0, 0] S400x128.size inb_S400x192_S400x128_0_0, (View.ld xs1 (Rect.unit (s := S10000x128) (k0_off2 i) S400x128.size (k0_off2_inb i h4)))⟩] := by
  unfold kernelRun0_C; dsimp only
  sl_unfold_run_names
  simp only [View.readAt_eq_ld, Memref.IsWhole.read_unread, ld_whole2, readCov_whole2]

set_option maxHeartbeats 1000000 in
theorem kernelRun0_C_piecesS2 :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1).2.2.2.1
      = [⟨Rect.unit (s := S10000x64) ![0, 0] S10000x64.size inb_S10000x64_S10000x64_0_0, k0_pay3 xs1 x5⟩] := by
  unfold kernelRun0_C; dsimp only
  sl_unfold_run_names
  simp only [View.readAt_eq_ld, Memref.IsWhole.read_unread, ld_whole2, readCov_whole2]

end Cert.Kernel.Hand

end
-- ==== Proof.KB.BodyC.lean ====
import proofs.«167823_g73521250173546_cont_sun_c4_545_21_alg».proof.Proof.KB.BodyDefs
import proofs.«167823_g73521250173546_cont_sun_c4_545_21_alg».proof.Proof.KB.InvStep
import proofs.«167823_g73521250173546_cont_sun_c4_545_21_alg».proof.Proof.KB.OutRead
import proofs.«167823_g73521250173546_cont_sun_c4_545_21_alg».proof.Proof.KB.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_C (c : Dev nD) (t : Fin cfg0.N) (hC : t.val = 25) :
    bodyPre m c t ⊢ wp frame (wpE (defs₀ (F := F)) Variants.none c none) Set.univ (bodyAt0 t) (fun _ => bodyPost m c t) := by
  obtain rfl : t = t25 := Fin.ext hC
  have hL : 25 ≤ (t25 : Fin cfg0.N).val := Nat.le_refl 25
  have h1 : ¬cond1 (grid0.coords t25) := fun h => by have := (hcond1 t25).mp h; exact absurd this (by decide)
  have h2 : ¬cond2 (grid0.coords t25) := fun h => by have := (hcond2 t25).mp h; exact absurd this (by decide)
  have h3 : cond3 (grid0.coords t25) := (hcond3 t25).mpr rfl
  have h4 : cond4 (grid0.coords t25) := (hcond4 t25).mpr hL
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).owesAt () t25.succ = (dats m 0 c).owesAt () t25.castSucc from rfl, Phi_eq, Phi_eq]
  simp only [Fin.coe_castSucc, Fin.val_succ]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29_live m c t25 hL, leaves0_30_live m c t25 hL, leaves0_31_live m c t25 hL]
  unfold PhiS
  iintro ⟨⟨⟨%a, %b, %e, %hInv, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  obtain ⟨ha, hb, he⟩ := hInv
  obtain rfl : a = s1val m c := ha (by decide)
  obtain rfl : b = x1full m c := inv_full m c b (by rw [Nat.min_eq_right hL] at hb; exact hb)
  iapply ((kernelRun0_C (F := F) c (h1 := h1) (h2 := h2) (h3 := h3) (h4 := h4) ..).2.2.2.2 Set.univ _)
  iframe H0 H1 H2 H3 H4 H5 H6 H7 H8 H9 H10 H11 H12 H13 H14 H15 H16 H17 H18 H19 H20 H21 H22 H23 H24 H25 H26 H27 H28 HS0 HS1
  isplitl [H29]; · iexists _; iexact H29
  isplitl [H30]; · iexists _; iexact H30
  isplitl [H31]; · iexists _; iexact H31
  isplitl [HS2]; · iexists _; iexact HS2
  iintro ⟨H0, H1, H2, H3, H4, H5, H6, H7, H8, H9, H10, H11, H12, H13, H14, H15, H16, H17, H18, H19, H20, H21, H22, H23, H24, H25, H26, H27, H28, ⟨%f29, H29⟩, ⟨%f30, H30⟩, ⟨%f31, H31⟩, HS0, HS1, ⟨%f2, HS2⟩⟩
  iframe Hg Ho H0 H1 H2 H3 H4 H5 H6 H7 H8 H9 H10 H11 H12 H13 H14 H15 H16 H17 H18 H19 H20 H21 H22 H23 H24 H25 H26 H27 H28
  isplitl [HS0 HS1 HS2]
  · iexists (s1val m c), (x1full m c), _
    iframe HS0 HS1
    isplitr
    swap
    · unfold owns; iexists _; iframe HS2; ipureintro; rfl
    ipureintro
    refine ⟨fun _ => rfl, fun _ _ => rfl, fun _ => ?_⟩
    rw [kernelRun0_C_piecesS2, read_writes_whole _ _ off00 _ _]
    rfl
  isplitl [H29]
  · unfold owns; iexists _; iframe H29; ipureintro
    rw [kernelRun0_C_pieces29, read_writes_whole _ _ off00 _ _, x1s_ld m c t25 hL _]
    rfl
  isplitl [H30]
  · unfold owns; iexists _; iframe H30; ipureintro
    rw [kernelRun0_C_pieces30, read_writes_whole _ _ off00 _ _, x1s_ld m c t25 hL _]
    rfl
  unfold owns; iexists _; iframe H31; ipureintro
  rw [kernelRun0_C_pieces31, read_writes_cat _ _ _ _ _ _, x1s_ld m c t25 hL _]
  rfl

end Cert.Kernel.Hand

end
-- ==== Proof.KB.RunD.lean ====
import proofs.«167823_g73521250173546_cont_sun_c4_545_21_alg».proof.Proof.KB.RunLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S128x256 .f32) (harg9 : arg9.IsWhole) (arg10 : Memref sig .tc .vmem S64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S128x10 .f32) (harg22 : arg22.IsWhole) (arg23 : Memref sig .tc .vmem S1x10 .f32) (harg23 : arg23.IsWhole) (arg24 : Memref sig .tc .vmem S128x256 .f32) (harg24 : arg24.IsWhole) (arg25 : Memref sig .tc .vmem S64x256 .f32) (harg25 : arg25.IsWhole) (arg26 : Memref sig .tc .vmem S1x256 .f32) (harg26 : arg26.IsWhole) (arg27 : Memref sig .tc .vmem S256x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S400x10 .f32) (harg31 : arg31.IsWhole) (arg32 : Memref sig .tc .vmem S400x128 .f32) (harg32 : arg32.IsWhole) (arg33 : Memref sig .tc .vmem S400x192 .f32) (harg33 : arg33.IsWhole) (arg34 : Memref sig .tc .vmem S10000x128 .bf16) (harg34 : arg34.IsWhole) (arg35 : Memref sig .tc .vmem S10000x128 .f32) (harg35 : arg35.IsWhole) (arg36 : Memref sig .tc .vmem S10000x64 .bf16) (harg36 : arg36.IsWhole)
  (h1 : ¬cond1 i) (h2 : ¬cond2 i) (h3 : ¬cond3 i) (h4 : cond4 i)
  (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32)
  (xs0 : Vec F S10000x128 .bf16) (xs1 : Vec F S10000x128 .f32) (xs2 : Vec F S10000x64 .bf16)
include h1 h2 h3 h4

set_option maxHeartbeats 1000000 in
/-- At a later point of sweep 2 the body writes the three result blocks; every other buffer comes back unchanged. -/
noncomputable def kernelRun0_D :
    Σ' (L29 : List (View.Piece (Elt F) S400x10 .f32)) (L30 : List (View.Piece (Elt F) S400x128 .f32)), { L31 : List (View.Piece (Elt F) S400x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
            ∗ (∃ d, owns (c : Thread nD τ) arg31 fullShare d) ∗ (∃ d, owns (c : Thread nD τ) arg32 fullShare d) ∗ (∃ d, owns (c : Thread nD τ) arg33 fullShare d)
            ∗ owns (c : Thread nD τ) arg34 fullShare xs0 ∗ owns (c : Thread nD τ) arg35 fullShare xs1 ∗ owns (c : Thread nD τ) arg36 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
                  ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31)
                  ∗ owns (c : Thread nD τ) arg34 fullShare xs0 ∗ owns (c : Thread nD τ) arg35 fullShare xs1 ∗ owns (c : Thread nD τ) arg36 fullShare xs2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, ?_, fun E K => ?run⟩
  case run =>
    simp (disch := assumption) only [owns_eq_unread]
    iintro ⟨H0, H1, H2, H3, H4, H5, H6, H7, H8, H9, H10, H11, H12, H13, H14, H15, H16, H17, H18, H19, H20, H21, H22, H23, H24, H25, H26, H27, H28, ⟨%d29, H29⟩, ⟨%d30, H30⟩, ⟨%d31, H31⟩, HS0, HS1, HS2, Hk⟩
    simp only [cc0__body_eq_skeleton]; unfold cc0__body_skel
    simp only [k0_part1_eq_skeleton, k0_part2_eq_skeleton, k0_part3_eq_skeleton]; unfold k0_part1_skel k0_part2_skel k0_part3_skel
    sl_exec (disch := first | exact h1 | exact h2 | exact h3 | exact h4)
    sl_step
    iapply Hk
    iframe
    isplitl [H29]; · iexists _; iexact H29
    isplitl [H30]; · iexists _; iexact H30
    iexists _; iexact H31

set_option maxHeartbeats 1000000 in
theorem kernelRun0_D_pieces31 :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1 xs2).2.2.1
      = [⟨Rect.unit (s := S400x192) ![0, 128] S400x64.size inb_S400x192_S400x64_0_128, k0_pay5 x0 xs2 x1 xs2 x6⟩,
         ⟨Rect.unit (s := S400x192) ![0, 0] S400x128.size inb_S400x192_S400x128_0_0, (View.ld xs1 (Rect.unit (s := S10000x128) (k0_off2 i) S400x128.size (k0_off2_inb i h4)))⟩] := by
  unfold kernelRun0_D; dsimp only
  sl_unfold_run_names
  simp only [View.readAt_eq_ld, Memref.IsWhole.read_unread, ld_whole2]

set_option maxHeartbeats 1000000 in
theorem kernelRun0_D_pieces30 :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1 xs2).2.1
      = [⟨Rect.unit (s := S400x128) ![0, 0] S400x128.size inb_S400x128_S400x128_0_0,
          k0_pay4 (k0_pay5 x0 xs2 x1 xs2 x6) (k0_pay13 (View.ld xs1 (Rect.unit (s := S10000x128) (k0_off2 i) S400x128.size (k0_off2_inb i h4))) x22) x23 x24 x25 x26 x27 x28⟩] := by
  unfold kernelRun0_D; dsimp only
  sl_unfold_run_names
  simp only [View.readAt_eq_ld, Memref.IsWhole.read_unread, ld_whole2]

set_option maxHeartbeats 1000000 in
theorem kernelRun0_D_pieces29 :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1 xs2).1
      = [⟨Rect.unit (s := S400x10) ![0, 0] S400x10.size inb_S400x10_S400x10_0_0,
          k0_pay12 (k0_pay8 (k0_pay6 (View.ld xs1 (Rect.unit (s := S10000x128) (k0_off2 i) S400x128.size (k0_off2_inb i h4))) x0 xs2 x1 xs2 x6 x7 x8) (k0_pay7 x9) x10 x11 x12 x13 x14 x15) (k0_pay9 x16) (k0_pay10 x17) (k0_pay11 x18) x19 x20 x21⟩] := by
  unfold kernelRun0_D; dsimp only
  sl_unfold_run_names
  simp only [View.readAt_eq_ld, Memref.IsWhole.read_unread, ld_whole2]

end Cert.Kernel.Hand

end
-- ==== Proof.KB.BodyD.lean ====
import proofs.«167823_g73521250173546_cont_sun_c4_545_21_alg».proof.Proof.KB.BodyDefs
import proofs.«167823_g73521250173546_cont_sun_c4_545_21_alg».proof.Proof.KB.InvStep
import proofs.«167823_g73521250173546_cont_sun_c4_545_21_alg».proof.Proof.KB.OutRead
import proofs.«167823_g73521250173546_cont_sun_c4_545_21_alg».proof.Proof.KB.RunD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_D (c : Dev nD) (t : Fin cfg0.N) (hD : 25 < t.val) :
    bodyPre m c t ⊢ wp frame (wpE (defs₀ (F := F)) Variants.none c none) Set.univ (bodyAt0 t) (fun _ => bodyPost m c t) := by
  have hN : t.val < 50 := lt_of_lt_of_eq t.isLt N50
  have h1 : ¬cond1 (grid0.coords t) := fun h => by have := (hcond1 t).mp h; omega
  have h2 : ¬cond2 (grid0.coords t) := fun h => by have := (hcond2 t).mp h; omega
  have h3 : ¬cond3 (grid0.coords t) := fun h => by have := (hcond3 t).mp h; omega
  have h4 : cond4 (grid0.coords t) := (hcond4 t).mpr (by omega)
  have hL : 25 ≤ t.val := by omega
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).owesAt () t.succ = (dats m 0 c).owesAt () t.castSucc from rfl, Phi_eq, Phi_eq]
  simp only [Fin.coe_castSucc, Fin.val_succ]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29_live m c t hL, leaves0_30_live m c t hL, leaves0_31_live m c t hL]
  unfold PhiS
  iintro ⟨⟨⟨%a, %b, %e, %hInv, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  obtain ⟨ha, hb, he⟩ := hInv
  obtain rfl : a = s1val m c := ha (by omega)
  obtain rfl : e = s2val m c := he (by omega)
  obtain rfl : b = x1full m c := inv_full m c b (by rw [Nat.min_eq_right hL] at hb; exact hb)
  iapply ((kernelRun0_D (F := F) c (h1 := h1) (h2 := h2) (h3 := h3) (h4 := h4) ..).2.2.2 Set.univ _)
  iframe H0 H1 H2 H3 H4 H5 H6 H7 H8 H9 H10 H11 H12 H13 H14 H15 H16 H17 H18 H19 H20 H21 H22 H23 H24 H25 H26 H27 H28 HS0 HS1 HS2
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, ⟨%f29, H29⟩, ⟨%f30, H30⟩, ⟨%f31, H31⟩, HS0, HS1, HS2⟩
  iframe Hg Ho H0 H1 H2 H3 H4 H5 H6 H7 H8 H9 H10 H11 H12 H13 H14 H15 H16 H17 H18 H19 H20 H21 H22 H23 H24 H25 H26 H27 H28
  isplitl [HS0 HS1 HS2]
  · iexists (s1val m c), (x1full m c), (s2val m c)
    iframe HS0 HS1 HS2
    ipureintro; exact ⟨fun _ => rfl, fun _ _ => rfl, fun _ => rfl⟩
  isplitl [H29]
  · unfold owns; iexists _; iframe H29; ipureintro
    rw [kernelRun0_D_pieces29, read_writes_whole _ _ off00 _ _, x1s_ld m c t hL _]
    rfl
  isplitl [H30]
  · unfold owns; iexists _; iframe H30; ipureintro
    rw [kernelRun0_D_pieces30, read_writes_whole _ _ off00 _ _, x1s_ld m c t hL _]
    rfl
  unfold owns; iexists _; iframe H31; ipureintro
  rw [kernelRun0_D_pieces31, read_writes_cat _ _ _ _ _ _, x1s_ld m c t hL _]
  rfl

end Cert.Kernel.Hand

end
-- ==== Proof.KB.Body.lean ====
import proofs.«167823_g73521250173546_cont_sun_c4_545_21_alg».proof.Proof.KB.BodyA
import proofs.«167823_g73521250173546_cont_sun_c4_545_21_alg».proof.Proof.KB.BodyB
import proofs.«167823_g73521250173546_cont_sun_c4_545_21_alg».proof.Proof.KB.BodyC
import proofs.«167823_g73521250173546_cont_sun_c4_545_21_alg».proof.Proof.KB.BodyD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The four control cases: t = 0, 0 < t < 25, t = 25, 25 < t. -/
theorem body_obligation (c : Dev nD) : BodyObligation (dats (F := F) m 0 c) (defs₀ (F := F)) Variants.none () Set.univ := fun t => by
  rw [bigSep_W0, bigSep_W0]
  by_cases hA : t.val = 0
  · exact sound_A m c t hA
  by_cases hB : t.val < 25
  · exact sound_B m c t hA hB
  by_cases hC : t.val = 25
  · exact sound_C m c t hC
  · exact sound_D m c t (by omega)

end Cert.Kernel.Hand

end
-- ==== Proof.LibSharedFrame.lean ====
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedSplit

variable {Λ₀ : SL.Sem.Labels}
variable {Ix : Type} [DecidableEq Ix] {Name : Type} [DecidableEq Name] {U : Type} [URA U] {Lvl : Type}

local notation "𝕄" => MT nD τ sig Ix Val Name U Lvl

/-- The shared buffer's full share is its left half and its right half; every other window's buffer is its own. -/
theorem arrays_split_two_of_q (cfg : Cfg sig Λ₀) (c : Dev nD) (dat : Dat τ Val Ix Name U Lvl cfg c)
    (V : (b : Ref sig .tc) → Buf Val ((c.tc : Thread nD τ).loc b))
    (w₀ w₁ : Fin cfg.W) (hne : w₀ ≠ w₁)
    (href : arrRef cfg.spec w₀ = arrRef cfg.spec w₁)
    (hinj : ∀ w w' : Fin cfg.W, w ≠ w₁ → w' ≠ w₁ → arrRef cfg.spec w = arrRef cfg.spec w' → w = w')
    (harr : ∀ w, (cfg.spec w).arr.IsWhole)
    (hin₀ : (cfg.win w₀).isOut = false) (hin₁ : (cfg.win w₁).isOut = false)
    (hq₀ : dat.q w₀ = fullShare.left) (hq₁ : dat.q w₁ = fullShare.right)
    (hq : ∀ w, w ≠ w₀ → w ≠ w₁ → (cfg.win w).isOut = false → dat.q w = fullShare)
    (hA : ∀ w, dat.A w = V (arrRef cfg.spec w)) :
    (arrBufs cfg.spec c V : sProp 𝕄) ⊢ dat.arrays (dat.arrAt · 0) := by
  have hs₀ : dat.share w₀ = fullShare.left := by unfold Dat.share; rw [hin₀]; exact hq₀
  have hs₁ : dat.share w₁ = fullShare.right := by unfold Dat.share; rw [hin₁]; exact hq₁
  have hs : ∀ w, w ≠ w₀ → w ≠ w₁ → dat.share w = fullShare := fun w h₀ h₁ => by
    unfold Dat.share
    cases ho : (cfg.win w).isOut
    · exact hq w h₀ h₁ ho
    · rfl
  classical
  have hR : dat.arrays (dat.arrAt · 0)
      = bigSep Finset.univ fun w => (((c.tc : Thread nD τ).loc (arrRef cfg.spec w)) ↦{dat.share w} V (arrRef cfg.spec w) : sProp 𝕄) := by
    unfold Dat.arrays
    exact BI.bigSep_congr fun w _ => by
      rw [(harr w).set_eq_univ]
      change (((cfg.win w).arr.view.loc (c.tc : Thread nD τ) ↦{dat.share w} dat.A w : sProp 𝕄) = _)
      rw [hA w]
  rw [hR]
  unfold arrBufs
  have hw₀ : w₀ ∈ Finset.univ.erase w₁ := Finset.mem_erase.mpr ⟨hne, Finset.mem_univ _⟩
  have himg : Finset.univ.image (arrRef cfg.spec) = (Finset.univ.erase w₁).image (arrRef cfg.spec) := by
    ext b
    constructor
    · intro hb
      obtain ⟨w, -, rfl⟩ := Finset.mem_image.mp hb
      by_cases h : w = w₁
      · exact Finset.mem_image.mpr ⟨w₀, hw₀, by rw [h, href]⟩
      · exact Finset.mem_image.mpr ⟨w, Finset.mem_erase.mpr ⟨h, Finset.mem_univ _⟩, rfl⟩
    · intro hb
      obtain ⟨w, -, rfl⟩ := Finset.mem_image.mp hb
      exact Finset.mem_image.mpr ⟨w, Finset.mem_univ _, rfl⟩
  rw [himg, BI.bigSep_image_of_injOn (fun w hw w' hw' e =>
      hinj w w' (Finset.ne_of_mem_erase (Finset.mem_coe.mp hw)) (Finset.ne_of_mem_erase (Finset.mem_coe.mp hw')) e),
    BI.bigSep_erase hw₀]
  rw [BI.bigSep_univ_split w₁, BI.bigSep_erase hw₀, hs₀, hs₁]
  rw [show bigSep ((Finset.univ.erase w₁).erase w₀)
        (fun w => (((c.tc : Thread nD τ).loc (arrRef cfg.spec w)) ↦{dat.share w} V (arrRef cfg.spec w) : sProp 𝕄))
      = bigSep ((Finset.univ.erase w₁).erase w₀)
        (fun w => (((c.tc : Thread nD τ).loc (arrRef cfg.spec w)) ↦{fullShare} V (arrRef cfg.spec w) : sProp 𝕄))
      from BI.bigSep_congr fun w hw => by
        rw [hs w (Finset.ne_of_mem_erase hw) (Finset.ne_of_mem_erase (Finset.mem_of_mem_erase hw))]]
  generalize arrRef cfg.spec w₁ = r₁ at href ⊢
  subst href
  exact ((BI.Laws.sep_mono_left (pointsTo_share (PosShare.mem_left_op_right fullShare)).1).trans
    (BI.Laws.sep_mono_left BI.Laws.sep_comm.1)).trans BI.Laws.sep_assoc.1

end SharedSplit

section SharedFrame

variable {Λ₀ : SL.Sem.Labels} {P : Type} [Fintype P] [DecidableEq P] [∀ e, Nonempty (Val e)]

local notation "𝕄" => MT nD τ sig Unit Val ℕ (UR sig nD τ) ℕ

/-- The frame run from an entailment that deals the arrays' buffers to the windows, in place of pairwise distinct arrays. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfgs p).spec c (V c) ⊢ (dats p c).arrays ((dats p c).arrAt · 0))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c from by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end SharedFrame

end Pipeline

end Idealize.ShloMosaic
-- ==== Proof.KB.Frame.lean ====
import proofs.«167823_g73521250173546_cont_sun_c4_545_21_alg».proof.Proof.KB.Body
import proofs.«167823_g73521250173546_cont_sun_c4_545_21_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At n = 0 every clause of Inv has a false premise. -/
theorem hin (c : Dev nD) : Pipeline.ΦA spec0 c ⊢ (dats m 0 c).Φ 0 := by
  rw [Phi_eq, PhiA0_eq]
  unfold PhiS
  iintro ⟨⟨⟨%d0, H0⟩, ⟨%d1, H1⟩, ⟨%d2, H2⟩⟩, Hg⟩
  iframe Hg
  iexists d0, d1, d2
  iframe H0 H1 H2
  ipureintro
  exact ⟨fun h => absurd h (by simp), fun idx h => absurd h (by simp), fun h => absurd h (by simp)⟩

theorem hout (c : Dev nD) : (dats m 0 c).Φ (Fin.last cfg0.N) ⊢ Pipeline.ΦA spec0 c := by
  rw [Phi_eq, PhiA0_eq]
  unfold PhiS
  iintro ⟨⟨%a, %b, %e, -, H0, H1, H2⟩, Hg⟩
  iframe Hg
  isplitl [H0]; · iexists _; iexact H0
  isplitl [H1]; · iexists _; iexact H1
  iexists _; iexact H2

/-- shareOf is the left half at window 0, the right half at window 1 and the full share at every other window. -/
theorem hsplit (c : Dev nD) : Pipeline.arrBufs cfg0.spec c (V m c) ⊢ (dats m 0 c).arrays ((dats m 0 c).arrAt · 0) :=
  Pipeline.arrays_split_two_of_q cfg0 c (dats m 0 c) (V m c) 0 1 (by decide) (by decide)
    (by decide) arr_whole0 rfl rfl (by dsimp only [dats, shareOf]; rfl) (by dsimp only [dats, shareOf]; rfl)
    (fun w h0 h1 _ => by
      dsimp only [dats, shareOf]
      have e0 : ¬ (w.val = 0) := fun h => h0 (Fin.ext h)
      have e1 : ¬ (w.val = 1) := fun h => h1 (Fin.ext h)
      rw [if_neg e0, if_neg e1])
    (A_eq m c)

set_option backward.isDefEq.respectTransparency.types false in
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

theorem frame : type_of% (frame_of m ρ (dats m) (A_eq m) (run_main m ρ)) :=
  frame_of m ρ (dats m) (A_eq m) (run_main m ρ)

end Cert.Kernel.Hand

end
-- ==== Proof.KI.Tables.lean ====
import proofs.«167823_g73521250173546_cont_sun_c4_545_21_alg».proof.Proof.Gen.KernelIdeal.Launch
import proofs.«167823_g73521250173546_cont_sun_c4_545_21_alg».proof.Proof.Gen.KernelIdeal.Skeleton
import proofs.«167823_g73521250173546_cont_sun_c4_545_21_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

abbrev hostOuts : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25]

/-- Each host operation writes its one result, and the results are main_v0 … main_v25. -/
theorem hostOps0_writes : (hostOps0 : List (HloOp τ sig (Elt F))).Forall fun op => op.writes ⊆ (hostOuts.map (Proc.devRef (τ := τ) .tc)).toFinset := by
  simp only [hostOps0, List.Forall, StableHlo.unary_writes, Finset.singleton_subset_iff, List.mem_toFinset]
  repeat' apply And.intro
  all_goals exact List.mem_map.2 ⟨_, by decide, rfl⟩

/-- A reference no host operation writes holds at the region's entry what it held at the start. -/
theorem V_of_not_written (c : Dev nD) {r : Ref sig .tc} (hr : r ∉ hostOuts) : V m c r = m ((c : Thread nD τ).loc r) :=
  StableHlo.after_of_writes_sub hostOps0 _ hostOps0_writes hr

section
variable (c : Dev nD) (t : Fin cfg0.N)

theorem V_main_arg0 : V m c main_arg0 = m ((c : Thread nD τ).loc main_arg0) := V_of_not_written m c (by decide)
theorem V_main_arg1 : V m c main_arg1 = m ((c : Thread nD τ).loc main_arg1) := V_of_not_written m c (by decide)
theorem V_main_arg2 : V m c main_arg2 = m ((c : Thread nD τ).loc main_arg2) := V_of_not_written m c (by decide)
theorem V_main_arg4 : V m c main_arg4 = m ((c : Thread nD τ).loc main_arg4) := V_of_not_written m c (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev blk0_0 : Vec F S200x10000 .f32 := iblk m c 0 t
abbrev blk0_1 : Vec F S200x10000 .f32 := iblk m c 1 t
abbrev blk0_2 : Vec F S10000x128 .f32 := iblk m c 2 t
abbrev blk0_3 : Vec F S128x128 .f32 := iblk m c 3 t
abbrev blk0_4 : Vec F S1x128 .f32 := iblk m c 4 t
abbrev blk0_5 : Vec F S128x64 .f32 := iblk m c 5 t
abbrev blk0_6 : Vec F S1x64 .f32 := iblk m c 6 t
abbrev blk0_7 : Vec F S128x256 .f32 := iblk m c 7 t
abbrev blk0_8 : Vec F S64x256 .f32 := iblk m c 8 t
abbrev blk0_9 : Vec F S1x256 .f32 := iblk m c 9 t
abbrev blk0_10 : Vec F S1x256 .f32 := iblk m c 10 t
abbrev blk0_11 : Vec F S1x256 .f32 := iblk m c 11 t
abbrev blk0_12 : Vec F S1x256 .f32 := iblk m c 12 t
abbrev blk0_13 : Vec F S1x256 .f32 := iblk m c 13 t
abbrev blk0_14 : Vec F S256x128 .f32 := iblk m c 14 t
abbrev blk0_15 : Vec F S1x128 .f32 := iblk m c 15 t
abbrev blk0_16 : Vec F S1x128 .f32 := iblk m c 16 t
abbrev blk0_17 : Vec F S1x128 .f32 := iblk m c 17 t
abbrev blk0_18 : Vec F S1x128 .f32 := iblk m c 18 t
abbrev blk0_19 : Vec F S1x128 .f32 := iblk m c 19 t
abbrev blk0_20 : Vec F S128x10 .f32 := iblk m c 20 t
abbrev blk0_21 : Vec F S1x10 .f32 := iblk m c 21 t
abbrev blk0_22 : Vec F S128x256 .f32 := iblk m c 22 t
abbrev blk0_23 : Vec F S64x256 .f32 := iblk m c 23 t
abbrev blk0_24 : Vec F S1x256 .f32 := iblk m c 24 t
abbrev blk0_25 : Vec F S256x128 .f32 := iblk m c 25 t
abbrev blk0_26 : Vec F S1x128 .f32 := iblk m c 26 t
abbrev blk0_27 : Vec F S128x128 .f32 := iblk m c 27 t
abbrev blk0_28 : Vec F S1x128 .f32 := iblk m c 28 t

abbrev ms0_0 : Memref sig .tc .vmem S200x10000 .f32 := win0_0.stage (cfg0.slots t 0)
abbrev ms0_1 : Memref sig .tc .vmem S200x10000 .f32 := win0_1.stage (cfg0.slots t 1)
abbrev ms0_2 : Memref sig .tc .vmem S10000x128 .f32 := win0_2.stage (cfg0.slots t 2)
abbrev ms0_3 : Memref sig .tc .vmem S128x128 .f32 := win0_3.stage (cfg0.slots t 3)
abbrev ms0_4 : Memref sig .tc .vmem S1x128 .f32 := win0_4.stage (cfg0.slots t 4)
abbrev ms0_5 : Memref sig .tc .vmem S128x64 .f32 := win0_5.stage (cfg0.slots t 5)
abbrev ms0_6 : Memref sig .tc .vmem S1x64 .f32 := win0_6.stage (cfg0.slots t 6)
abbrev ms0_7 : Memref sig .tc .vmem S128x256 .f32 := win0_7.stage (cfg0.slots t 7)
abbrev ms0_8 : Memref sig .tc .vmem S64x256 .f32 := win0_8.stage (cfg0.slots t 8)
abbrev ms0_9 : Memref sig .tc .vmem S1x256 .f32 := win0_9.stage (cfg0.slots t 9)
abbrev ms0_10 : Memref sig .tc .vmem S1x256 .f32 := win0_10.stage (cfg0.slots t 10)
abbrev ms0_11 : Memref sig .tc .vmem S1x256 .f32 := win0_11.stage (cfg0.slots t 11)
abbrev ms0_12 : Memref sig .tc .vmem S1x256 .f32 := win0_12.stage (cfg0.slots t 12)
abbrev ms0_13 : Memref sig .tc .vmem S1x256 .f32 := win0_13.stage (cfg0.slots t 13)
abbrev ms0_14 : Memref sig .tc .vmem S256x128 .f32 := win0_14.stage (cfg0.slots t 14)
abbrev ms0_15 : Memref sig .tc .vmem S1x128 .f32 := win0_15.stage (cfg0.slots t 15)
abbrev ms0_16 : Memref sig .tc .vmem S1x128 .f32 := win0_16.stage (cfg0.slots t 16)
abbrev ms0_17 : Memref sig .tc .vmem S1x128 .f32 := win0_17.stage (cfg0.slots t 17)
abbrev ms0_18 : Memref sig .tc .vmem S1x128 .f32 := win0_18.stage (cfg0.slots t 18)
abbrev ms0_19 : Memref sig .tc .vmem S1x128 .f32 := win0_19.stage (cfg0.slots t 19)
abbrev ms0_20 : Memref sig .tc .vmem S128x10 .f32 := win0_20.stage (cfg0.slots t 20)
abbrev ms0_21 : Memref sig .tc .vmem S1x10 .f32 := win0_21.stage (cfg0.slots t 21)
abbrev ms0_22 : Memref sig .tc .vmem S128x256 .f32 := win0_22.stage (cfg0.slots t 22)
abbrev ms0_23 : Memref sig .tc .vmem S64x256 .f32 := win0_23.stage (cfg0.slots t 23)
abbrev ms0_24 : Memref sig .tc .vmem S1x256 .f32 := win0_24.stage (cfg0.slots t 24)
abbrev ms0_25 : Memref sig .tc .vmem S256x128 .f32 := win0_25.stage (cfg0.slots t 25)
abbrev ms0_26 : Memref sig .tc .vmem S1x128 .f32 := win0_26.stage (cfg0.slots t 26)
abbrev ms0_27 : Memref sig .tc .vmem S128x128 .f32 := win0_27.stage (cfg0.slots t 27)
abbrev ms0_28 : Memref sig .tc .vmem S1x128 .f32 := win0_28.stage (cfg0.slots t 28)
abbrev ms0_29 : Memref sig .tc .vmem S400x10 .f32 := win0_29.stage (cfg0.slots t 29)
abbrev ms0_30 : Memref sig .tc .vmem S400x128 .f32 := win0_30.stage (cfg0.slots t 30)
abbrev ms0_31 : Memref sig .tc .vmem S400x192 .f32 := win0_31.stage (cfg0.slots t 31)
end

abbrev scM0_0 : Memref sig .tc .vmem S10000x128 .bf16 := Memref.whole cc0_scratch0
abbrev scM0_1 : Memref sig .tc .vmem S10000x128 .f32 := Memref.whole cc0_scratch1
abbrev scM0_2 : Memref sig .tc .vmem S10000x64 .bf16 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Each argument holds V after the run, and V is the initial contents at every reference the host operations do not write. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    have st (w : Fin 32) (hw : (cfg0.win w).isOut = false) : r.2.mem ((c.tc : Thread nD τ).loc (Pipeline.arrRef spec0 w)) = V m c (Pipeline.arrRef spec0 w) :=
      ((h c).1 w).trans (((dats 0 c).arrAt_in w hw _).trans (hA c w))
    have rs (b : Ref sig .tc) (hb : b.isScoped = false ∧ (∀ w, (spec0 w).arr.view.ref ≠ b) ∧ b ∉ hostOuts) : r.2.mem ((c.tc : Thread nD τ).loc b) = m ((c.tc : Thread nD τ).loc b) :=
      ((h c).2 b (Pipeline.mem_restRefs_of b hb.1 hb.2.1)).trans (V_of_not_written m c hb.2.2)
    ⟨(st 2 rfl).trans (V_main_arg0 m c),
      (st 0 rfl).trans (V_main_arg1 m c),
      (st 3 rfl).trans (V_main_arg2 m c),
      rs main_arg3 (by decide),
      (st 5 rfl).trans (V_main_arg4 m c),
      rs main_arg5 (by decide),
      rs main_arg6 (by decide),
      rs main_arg7 (by decide),
      rs main_arg8 (by decide),
      rs main_arg9 (by decide),
      rs main_arg10 (by decide),
      rs main_arg11 (by decide),
      rs main_arg12 (by decide),
      rs main_arg13 (by decide),
      rs main_arg14 (by decide),
      rs main_arg15 (by decide),
      rs main_arg16 (by decide),
      rs main_arg17 (by decide),
      rs main_arg18 (by decide),
      rs main_arg19 (by decide),
      rs main_arg20 (by decide),
      rs main_arg21 (by decide),
      rs main_arg22 (by decide),
      rs main_arg23 (by decide),
      rs main_arg24 (by decide),
      rs main_arg25 (by decide)⟩) h

end Cert.KernelIdeal.Hand

end
-- ==== Proof.KI.Conds.lean ====
import proofs.«167823_g73521250173546_cont_sun_c4_545_21_alg».proof.Proof.Gen.KernelIdeal.Skeleton
import proofs.«167823_g73521250173546_cont_sun_c4_545_21_alg».proof.Proof.Gen.KernelIdeal.Launch
import proofs.«167823_g73521250173546_cont_sun_c4_545_21_alg».proof.Proof.Gen.KernelIdeal.Points

noncomputable section

namespace Cert.KernelIdeal.Hand

open Idealize.ShloMosaic Idealize.ShloMosaic.TcCoe
open Cert.KernelIdeal Cert.KernelIdeal.Gen

abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
abbrev cond2 (i : grid0.Coords) : Prop := k0_cond2 i = 1#1
abbrev cond3 (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1
abbrev cond4 (i : grid0.Coords) : Prop := k0_cond4 i = 1#1

/-- On the linearised grid t = 25 p + j the four branch conditions are t = 0, t < 25, t = 25 and 25 ≤ t. -/
theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)

/-- Both row offsets are 400 j. -/
theorem off1_val : ∀ t : Fin cfg0.N, k0_off1 (grid0.coords t) = ![400 * (t.val % 25), 0] :=
  (by decide +kernel : ∀ t : Fin grid0.N, k0_off1 (grid0.coords t) = ![400 * (t.val % 25), 0])
theorem off2_val : ∀ t : Fin cfg0.N, k0_off2 (grid0.coords t) = ![400 * (t.val % 25), 0] :=
  (by decide +kernel : ∀ t : Fin grid0.N, k0_off2 (grid0.coords t) = ![400 * (t.val % 25), 0])

theorem noflush_out : ∀ t : Fin cfg0.N, ∀ w : Fin 32, 29 ≤ w.val → t.val < 25 → (cfg0.win w).flush t = false := by decide +kernel
theorem flush_out : ∀ t : Fin cfg0.N, ∀ w : Fin 32, 29 ≤ w.val → 25 ≤ t.val → (cfg0.win w).flush t = true := by decide +kernel
theorem live_in : ∀ t : Fin cfg0.N, ∀ w : Fin 32, w.val < 29 → cfg0.idle w (grid0.coords t) = false := by decide +kernel

end Cert.KernelIdeal.Hand

end
-- ==== Proof.KI.Data.lean ====
import proofs.«167823_g73521250173546_cont_sun_c4_545_21_alg».proof.Proof.KI.Tables
import proofs.«167823_g73521250173546_cont_sun_c4_545_21_alg».proof.Proof.KI.Conds
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

def t0 : Fin cfg0.N := ⟨0, by rw [N50]; omega⟩
def t25 : Fin cfg0.N := ⟨25, by rw [N50]; omega⟩

/-- s1 = x · W1, rounded to bf16. -/
def s1val (c : Dev nD) : FVec F S10000x128 .bf16 := k0_pay1 (blk0_2 m c t0) (blk0_3 m c t0)

/-- Rows 400 j … 400 j + 399 of x1 = tanh(adj · s1 + b1), j = t mod 25. -/
def x1blk (c : Dev nD) (t : Fin cfg0.N) : FVec F S400x128 .f32 :=
  k0_pay2 (blk0_0 m c t) (s1val m c) (blk0_1 m c t) (s1val m c) (blk0_4 m c t)

/-- All of x1: row r is row r mod 400 of the tile of point r / 400. -/
def x1full (c : Dev nD) : Vec F S10000x128 .f32 := fun idx =>
  x1blk m c ⟨(idx 0).val / 400, by have := ValueIdx.idx2_lt0 idx; rw [N50]; omega⟩
    (ix2 (n0 := 400) (n1 := 128) ⟨(idx 0).val % 400, Nat.mod_lt _ (by norm_num)⟩ ⟨(idx 1).val, ValueIdx.idx2_lt1 idx⟩)

/-- s2 = x1 · W2, rounded to bf16. -/
def s2val (c : Dev nD) : FVec F S10000x64 .bf16 := k0_pay3 (x1full m c) (blk0_5 m c t25)

/-- Rows 400 j … 400 j + 399 of x1, j = t mod 25. -/
def x1s (c : Dev nD) (t : Fin cfg0.N) : Vec F S400x128 .f32 := fun y =>
  x1full m c (ix2 (n0 := 10000) (n1 := 128) ⟨400 * (t.val % 25) + (y 0).val, by have := ValueIdx.idx2_lt0 y; omega⟩ ⟨(y 1).val, ValueIdx.idx2_lt1 y⟩)

/-- The same rows of x2 = tanh(adj · s2 + b2). -/
def x2blk (c : Dev nD) (t : Fin cfg0.N) : FVec F S400x64 .f32 :=
  k0_pay5 (blk0_0 m c t) (s2val m c) (blk0_1 m c t) (s2val m c) (blk0_6 m c t)

/-- The same rows of the class head: (linear, batch norm, relu) twice, linear, log-softmax. -/
def out29 (c : Dev nD) (t : Fin cfg0.N) : FVec F S400x10 .f32 :=
  k0_pay12
    (k0_pay8 (k0_pay6 (x1s m c t) (blk0_0 m c t) (s2val m c) (blk0_1 m c t) (s2val m c) (blk0_6 m c t) (blk0_7 m c t) (blk0_8 m c t))
      (k0_pay7 (blk0_9 m c t)) (blk0_10 m c t) (blk0_11 m c t) (blk0_12 m c t) (blk0_13 m c t) (blk0_14 m c t) (blk0_15 m c t))
    (k0_pay9 (blk0_16 m c t)) (k0_pay10 (blk0_17 m c t)) (k0_pay11 (blk0_18 m c t)) (blk0_19 m c t) (blk0_20 m c t) (blk0_21 m c t)

/-- The same rows of the reconstruction head: (linear, relu) twice, linear. -/
def out30 (c : Dev nD) (t : Fin cfg0.N) : FVec F S400x128 .f32 :=
  k0_pay4 (x2blk m c t) (k0_pay13 (x1s m c t) (blk0_22 m c t)) (blk0_23 m c t) (blk0_24 m c t) (blk0_25 m c t) (blk0_26 m c t) (blk0_27 m c t) (blk0_28 m c t)

/-- The same rows of [x1 | x2]: columns 0 … 127 from x1, 128 … 191 from x2. -/
def out31 (c : Dev nD) (t : Fin cfg0.N) : Vec F S400x192 .f32 :=
  View.canon (Val := Elt F) [⟨Rect.unit (s := S400x192) ![0, 128] S400x64.size Facts₀.inb_S400x192_S400x64_0_128, x2blk m c t⟩,
    ⟨Rect.unit (s := S400x192) ![0, 0] S400x128.size Facts₀.inb_S400x192_S400x128_0_0, x1s m c t⟩]

/-- Before point n: s1 is formed once n ≥ 1, the rows of x1 below 400 · min n 25 are final, s2 is formed once n ≥ 26. -/
def Inv (c : Dev nD) (n : ℕ) (a : Vec F S10000x128 .bf16) (b : Vec F S10000x128 .f32) (e : Vec F S10000x64 .bf16) : Prop :=
  (1 ≤ n → a = s1val m c) ∧ (∀ idx : S10000x128.Idx, (idx 0).val < 400 * min n 25 → b idx = x1full m c idx) ∧ (26 ≤ n → e = s2val m c)

def PhiS (c : Dev nD) (n : ℕ) : sProp 𝕄 :=
  iprop(iprop(∃ a, ∃ b, ∃ e, ⌜Inv m c n a b e⌝ ∗ owns (c : Thread nD τ) scM0_0 fullShare a ∗ owns (c : Thread nD τ) scM0_1 fullShare b ∗ owns (c : Thread nD τ) scM0_2 fullShare e) ∗ (∃ r, prngReg c r))

/-- The adjacency is the array of windows 0 and 1: its full share is split between the two. -/
def shareOf (w : Fin cfg0.W) : PosShare TreeShare :=
  if w.val = 0 then fullShare.left else if w.val = 1 then fullShare.right else fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => out29 m c t
    | ⟨30, _⟩ => out30 m c t
    | ⟨31, _⟩ => out31 m c t
    | ⟨_ + 32, h⟩ => absurd h (Nat.not_lt.2 (Nat.le_add_left _ _))
  Φ t := PhiS m c t.val
  q w := shareOf w
  owed _ := 0

theorem live_out : ∀ t : Fin cfg0.N, ∀ w : Fin 32, 29 ≤ w.val → 25 ≤ t.val → cfg0.idle w (grid0.coords t) = false := by decide +kernel
theorem idle_out1 : ∀ t : Fin cfg0.N, ∀ w : Fin 32, 29 ≤ w.val → t.val < 25 → cfg0.idle w (grid0.coords t) = true := by decide +kernel

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

end Cert.KernelIdeal.Hand

end
-- ==== Proof.KI.Tables2.lean ====
import proofs.«167823_g73521250173546_cont_sun_c4_545_21_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

theorem after0_29 : (dats m 0 c).after 29 t = out29 m c t := by dsimp only [dats]
theorem after0_30 : (dats m 0 c).after 30 t = out30 m c t := by dsimp only [dats]
theorem after0_31 : (dats m 0 c).after 31 t = out31 m c t := by dsimp only [dats]

theorem before0_0 (d) : (dats m 0 c).before 0 t d = iblk m c 0 t :=
  ((dats m 0 c).before_in_eq_fetched 0 rfl (fun _ => rfl) (fun _ _ _ => rfl) (fun _ => rfl) t d).trans rfl
theorem before0_1 (d) : (dats m 0 c).before 1 t d = iblk m c 1 t :=
  ((dats m 0 c).before_in_eq_fetched 1 rfl (fun _ => rfl) (fun _ _ _ => rfl) (fun _ => rfl) t d).trans rfl
theorem before0_2 (d) : (dats m 0 c).before 2 t d = iblk m c 2 t :=
  ((dats m 0 c).before_in_eq_fetched 2 rfl (fun _ => rfl) (fun _ _ _ => rfl) (fun _ => rfl) t d).trans rfl
theorem before0_3 (d) : (dats m 0 c).before 3 t d = iblk m c 3 t :=
  ((dats m 0 c).before_in_eq_fetched 3 rfl (fun _ => rfl) (fun _ _ _ => rfl) (fun _ => rfl) t d).trans rfl
theorem before0_4 (d) : (dats m 0 c).before 4 t d = iblk m c 4 t :=
  ((dats m 0 c).before_in_eq_fetched 4 rfl (fun _ => rfl) (fun _ _ _ => rfl) (fun _ => rfl) t d).trans rfl
theorem before0_5 (d) : (dats m 0 c).before 5 t d = iblk m c 5 t :=
  ((dats m 0 c).before_in_eq_fetched 5 rfl (fun _ => rfl) (fun _ _ _ => rfl) (fun _ => rfl) t d).trans rfl
theorem before0_6 (d) : (dats m 0 c).before 6 t d = iblk m c 6 t :=
  ((dats m 0 c).before_in_eq_fetched 6 rfl (fun _ => rfl) (fun _ _ _ => rfl) (fun _ => rfl) t d).trans rfl
theorem before0_7 (d) : (dats m 0 c).before 7 t d = iblk m c 7 t :=
  ((dats m 0 c).before_in_eq_fetched 7 rfl (fun _ => rfl) (fun _ _ _ => rfl) (fun _ => rfl) t d).trans rfl
theorem before0_8 (d) : (dats m 0 c).before 8 t d = iblk m c 8 t :=
  ((dats m 0 c).before_in_eq_fetched 8 rfl (fun _ => rfl) (fun _ _ _ => rfl) (fun _ => rfl) t d).trans rfl
theorem before0_9 (d) : (dats m 0 c).before 9 t d = iblk m c 9 t :=
  ((dats m 0 c).before_in_eq_fetched 9 rfl (fun _ => rfl) (fun _ _ _ => rfl) (fun _ => rfl) t d).trans rfl
theorem before0_10 (d) : (dats m 0 c).before 10 t d = iblk m c 10 t :=
  ((dats m 0 c).before_in_eq_fetched 10 rfl (fun _ => rfl) (fun _ _ _ => rfl) (fun _ => rfl) t d).trans rfl
theorem before0_11 (d) : (dats m 0 c).before 11 t d = iblk m c 11 t :=
  ((dats m 0 c).before_in_eq_fetched 11 rfl (fun _ => rfl) (fun _ _ _ => rfl) (fun _ => rfl) t d).trans rfl
theorem before0_12 (d) : (dats m 0 c).before 12 t d = iblk m c 12 t :=
  ((dats m 0 c).before_in_eq_fetched 12 rfl (fun _ => rfl) (fun _ _ _ => rfl) (fun _ => rfl) t d).trans rfl
theorem before0_13 (d) : (dats m 0 c).before 13 t d = iblk m c 13 t :=
  ((dats m 0 c).before_in_eq_fetched 13 rfl (fun _ => rfl) (fun _ _ _ => rfl) (fun _ => rfl) t d).trans rfl
theorem before0_14 (d) : (dats m 0 c).before 14 t d = iblk m c 14 t :=
  ((dats m 0 c).before_in_eq_fetched 14 rfl (fun _ => rfl) (fun _ _ _ => rfl) (fun _ => rfl) t d).trans rfl
theorem before0_15 (d) : (dats m 0 c).before 15 t d = iblk m c 15 t :=
  ((dats m 0 c).before_in_eq_fetched 15 rfl (fun _ => rfl) (fun _ _ _ => rfl) (fun _ => rfl) t d).trans rfl
theorem before0_16 (d) : (dats m 0 c).before 16 t d = iblk m c 16 t :=
  ((dats m 0 c).before_in_eq_fetched 16 rfl (fun _ => rfl) (fun _ _ _ => rfl) (fun _ => rfl) t d).trans rfl
theorem before0_17 (d) : (dats m 0 c).before 17 t d = iblk m c 17 t :=
  ((dats m 0 c).before_in_eq_fetched 17 rfl (fun _ => rfl) (fun _ _ _ => rfl) (fun _ => rfl) t d).trans rfl
theorem before0_18 (d) : (dats m 0 c).before 18 t d = iblk m c 18 t :=
  ((dats m 0 c).before_in_eq_fetched 18 rfl (fun _ => rfl) (fun _ _ _ => rfl) (fun _ => rfl) t d).trans rfl
theorem before0_19 (d) : (dats m 0 c).before 19 t d = iblk m c 19 t :=
  ((dats m 0 c).before_in_eq_fetched 19 rfl (fun _ => rfl) (fun _ _ _ => rfl) (fun _ => rfl) t d).trans rfl
theorem before0_20 (d) : (dats m 0 c).before 20 t d = iblk m c 20 t :=
  ((dats m 0 c).before_in_eq_fetched 20 rfl (fun _ => rfl) (fun _ _ _ => rfl) (fun _ => rfl) t d).trans rfl
theorem before0_21 (d) : (dats m 0 c).before 21 t d = iblk m c 21 t :=
  ((dats m 0 c).before_in_eq_fetched 21 rfl (fun _ => rfl) (fun _ _ _ => rfl) (fun _ => rfl) t d).trans rfl
theorem before0_22 (d) : (dats m 0 c).before 22 t d = iblk m c 22 t :=
  ((dats m 0 c).before_in_eq_fetched 22 rfl (fun _ => rfl) (fun _ _ _ => rfl) (fun _ => rfl) t d).trans rfl
theorem before0_23 (d) : (dats m 0 c).before 23 t d = iblk m c 23 t :=
  ((dats m 0 c).before_in_eq_fetched 23 rfl (fun _ => rfl) (fun _ _ _ => rfl) (fun _ => rfl) t d).trans rfl
theorem before0_24 (d) : (dats m 0 c).before 24 t d = iblk m c 24 t :=
  ((dats m 0 c).before_in_eq_fetched 24 rfl (fun _ => rfl) (fun _ _ _ => rfl) (fun _ => rfl) t d).trans rfl
theorem before0_25 (d) : (dats m 0 c).before 25 t d = iblk m c 25 t :=
  ((dats m 0 c).before_in_eq_fetched 25 rfl (fun _ => rfl) (fun _ _ _ => rfl) (fun _ => rfl) t d).trans rfl
theorem before0_26 (d) : (dats m 0 c).before 26 t d = iblk m c 26 t :=
  ((dats m 0 c).before_in_eq_fetched 26 rfl (fun _ => rfl) (fun _ _ _ => rfl) (fun _ => rfl) t d).trans rfl
theorem before0_27 (d) : (dats m 0 c).before 27 t d = iblk m c 27 t :=
  ((dats m 0 c).before_in_eq_fetched 27 rfl (fun _ => rfl) (fun _ _ _ => rfl) (fun _ => rfl) t d).trans rfl
theorem before0_28 (d) : (dats m 0 c).before 28 t d = iblk m c 28 t :=
  ((dats m 0 c).before_in_eq_fetched 28 rfl (fun _ => rfl) (fun _ _ _ => rfl) (fun _ => rfl) t d).trans rfl

theorem leaves0_in (c : Dev nD) (w : Fin 32) (hw : w.val < 29) (t : Fin cfg0.N) :
    (dats m 0 c).leavesExact w t = owns (c : Thread nD τ) ((cfg0.win w).stage (cfg0.slots t w)) fullShare ((dats m 0 c).after w t) := by
  unfold Dat.leavesExact; rw [live_in t w hw]
theorem leaves0_0 : (dats m 0 c).leavesExact 0 t = owns (c : Thread nD τ) (ms0_0 t) fullShare (iblk m c 0 t) := leaves0_in m c 0 (by decide) t
theorem leaves0_1 : (dats m 0 c).leavesExact 1 t = owns (c : Thread nD τ) (ms0_1 t) fullShare (iblk m c 1 t) := leaves0_in m c 1 (by decide) t
theorem leaves0_2 : (dats m 0 c).leavesExact 2 t = owns (c : Thread nD τ) (ms0_2 t) fullShare (iblk m c 2 t) := leaves0_in m c 2 (by decide) t
theorem leaves0_3 : (dats m 0 c).leavesExact 3 t = owns (c : Thread nD τ) (ms0_3 t) fullShare (iblk m c 3 t) := leaves0_in m c 3 (by decide) t
theorem leaves0_4 : (dats m 0 c).leavesExact 4 t = owns (c : Thread nD τ) (ms0_4 t) fullShare (iblk m c 4 t) := leaves0_in m c 4 (by decide) t
theorem leaves0_5 : (dats m 0 c).leavesExact 5 t = owns (c : Thread nD τ) (ms0_5 t) fullShare (iblk m c 5 t) := leaves0_in m c 5 (by decide) t
theorem leaves0_6 : (dats m 0 c).leavesExact 6 t = owns (c : Thread nD τ) (ms0_6 t) fullShare (iblk m c 6 t) := leaves0_in m c 6 (by decide) t
theorem leaves0_7 : (dats m 0 c).leavesExact 7 t = owns (c : Thread nD τ) (ms0_7 t) fullShare (iblk m c 7 t) := leaves0_in m c 7 (by decide) t
theorem leaves0_8 : (dats m 0 c).leavesExact 8 t = owns (c : Thread nD τ) (ms0_8 t) fullShare (iblk m c 8 t) := leaves0_in m c 8 (by decide) t
theorem leaves0_9 : (dats m 0 c).leavesExact 9 t = owns (c : Thread nD τ) (ms0_9 t) fullShare (iblk m c 9 t) := leaves0_in m c 9 (by decide) t
theorem leaves0_10 : (dats m 0 c).leavesExact 10 t = owns (c : Thread nD τ) (ms0_10 t) fullShare (iblk m c 10 t) := leaves0_in m c 10 (by decide) t
theorem leaves0_11 : (dats m 0 c).leavesExact 11 t = owns (c : Thread nD τ) (ms0_11 t) fullShare (iblk m c 11 t) := leaves0_in m c 11 (by decide) t
theorem leaves0_12 : (dats m 0 c).leavesExact 12 t = owns (c : Thread nD τ) (ms0_12 t) fullShare (iblk m c 12 t) := leaves0_in m c 12 (by decide) t
theorem leaves0_13 : (dats m 0 c).leavesExact 13 t = owns (c : Thread nD τ) (ms0_13 t) fullShare (iblk m c 13 t) := leaves0_in m c 13 (by decide) t
theorem leaves0_14 : (dats m 0 c).leavesExact 14 t = owns (c : Thread nD τ) (ms0_14 t) fullShare (iblk m c 14 t) := leaves0_in m c 14 (by decide) t
theorem leaves0_15 : (dats m 0 c).leavesExact 15 t = owns (c : Thread nD τ) (ms0_15 t) fullShare (iblk m c 15 t) := leaves0_in m c 15 (by decide) t
theorem leaves0_16 : (dats m 0 c).leavesExact 16 t = owns (c : Thread nD τ) (ms0_16 t) fullShare (iblk m c 16 t) := leaves0_in m c 16 (by decide) t
theorem leaves0_17 : (dats m 0 c).leavesExact 17 t = owns (c : Thread nD τ) (ms0_17 t) fullShare (iblk m c 17 t) := leaves0_in m c 17 (by decide) t
theorem leaves0_18 : (dats m 0 c).leavesExact 18 t = owns (c : Thread nD τ) (ms0_18 t) fullShare (iblk m c 18 t) := leaves0_in m c 18 (by decide) t
theorem leaves0_19 : (dats m 0 c).leavesExact 19 t = owns (c : Thread nD τ) (ms0_19 t) fullShare (iblk m c 19 t) := leaves0_in m c 19 (by decide) t
theorem leaves0_20 : (dats m 0 c).leavesExact 20 t = owns (c : Thread nD τ) (ms0_20 t) fullShare (iblk m c 20 t) := leaves0_in m c 20 (by decide) t
theorem leaves0_21 : (dats m 0 c).leavesExact 21 t = owns (c : Thread nD τ) (ms0_21 t) fullShare (iblk m c 21 t) := leaves0_in m c 21 (by decide) t
theorem leaves0_22 : (dats m 0 c).leavesExact 22 t = owns (c : Thread nD τ) (ms0_22 t) fullShare (iblk m c 22 t) := leaves0_in m c 22 (by decide) t
theorem leaves0_23 : (dats m 0 c).leavesExact 23 t = owns (c : Thread nD τ) (ms0_23 t) fullShare (iblk m c 23 t) := leaves0_in m c 23 (by decide) t
theorem leaves0_24 : (dats m 0 c).leavesExact 24 t = owns (c : Thread nD τ) (ms0_24 t) fullShare (iblk m c 24 t) := leaves0_in m c 24 (by decide) t
theorem leaves0_25 : (dats m 0 c).leavesExact 25 t = owns (c : Thread nD τ) (ms0_25 t) fullShare (iblk m c 25 t) := leaves0_in m c 25 (by decide) t
theorem leaves0_26 : (dats m 0 c).leavesExact 26 t = owns (c : Thread nD τ) (ms0_26 t) fullShare (iblk m c 26 t) := leaves0_in m c 26 (by decide) t
theorem leaves0_27 : (dats m 0 c).leavesExact 27 t = owns (c : Thread nD τ) (ms0_27 t) fullShare (iblk m c 27 t) := leaves0_in m c 27 (by decide) t
theorem leaves0_28 : (dats m 0 c).leavesExact 28 t = owns (c : Thread nD τ) (ms0_28 t) fullShare (iblk m c 28 t) := leaves0_in m c 28 (by decide) t

theorem leaves0_29_live (h : 25 ≤ t.val) : (dats m 0 c).leavesExact 29 t = owns (c : Thread nD τ) (ms0_29 t) fullShare (out29 m c t) := by
  unfold Dat.leavesExact; rw [live_out t 29 (by decide) h, after0_29]
theorem leaves0_29_idle (h : t.val < 25) : (dats m 0 c).leavesExact 29 t = iprop(∃ d, owns (c : Thread nD τ) (ms0_29 t) fullShare ((dats m 0 c).before 29 t d)) :=
  Dat.leavesExact_idle (dats m 0 c) 29 t (idle_out1 t 29 (by decide) h) (noflush_out t 29 (by decide) h)
theorem leaves0_30_live (h : 25 ≤ t.val) : (dats m 0 c).leavesExact 30 t = owns (c : Thread nD τ) (ms0_30 t) fullShare (out30 m c t) := by
  unfold Dat.leavesExact; rw [live_out t 30 (by decide) h, after0_30]
theorem leaves0_30_idle (h : t.val < 25) : (dats m 0 c).leavesExact 30 t = iprop(∃ d, owns (c : Thread nD τ) (ms0_30 t) fullShare ((dats m 0 c).before 30 t d)) :=
  Dat.leavesExact_idle (dats m 0 c) 30 t (idle_out1 t 30 (by decide) h) (noflush_out t 30 (by decide) h)
theorem leaves0_31_live (h : 25 ≤ t.val) : (dats m 0 c).leavesExact 31 t = owns (c : Thread nD τ) (ms0_31 t) fullShare (out31 m c t) := by
  unfold Dat.leavesExact; rw [live_out t 31 (by decide) h, after0_31]
theorem leaves0_31_idle (h : t.val < 25) : (dats m 0 c).leavesExact 31 t = iprop(∃ d, owns (c : Thread nD τ) (ms0_31 t) fullShare ((dats m 0 c).before 31 t d)) :=
  Dat.leavesExact_idle (dats m 0 c) 31 t (idle_out1 t 31 (by decide) h) (noflush_out t 31 (by decide) h)

end Cert.KernelIdeal.Hand

end
-- ==== Proof.KI.BodyDefs.lean ====
import proofs.«167823_g73521250173546_cont_sun_c4_545_21_alg».proof.Proof.KI.Tables2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body obligation's two sides at point t with the product over the 32 windows written out. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t)

end Cert.KernelIdeal.Hand

end
-- ==== Proof.KI.InvStep.lean ====
import proofs.«167823_g73521250173546_cont_sun_c4_545_21_alg».proof.Proof.KI.Data
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row below 400 t is left as it was; a row r in [400 t, 400 t + 400) lies in the tile of point r / 400 = t, at row r % 400. -/
theorem inv_step (c : Dev nD) (t : Fin cfg0.N) (ht : t.val < 25) (b : Vec F S10000x128 .f32)
    (hb : ∀ idx : S10000x128.Idx, (idx 0).val < 400 * t.val → b idx = x1full m c idx)
    (off : Fin 2 → ℕ) (hoff : off = ![400 * t.val, 0]) (hinb : ∀ a, off a + S400x128.size a ≤ S10000x128.size a)
    (hw : scM0_1.IsWhole) :
    ∀ idx : S10000x128.Idx, (idx 0).val < 400 * (t.val + 1) →
      scM0_1.view.read (Elt F) (scM0_1.view.writes (Elt F) (hw.unread b)
        [⟨Rect.unit (s := S10000x128) off S400x128.size hinb, x1blk m c t⟩]) idx = x1full m c idx := by
  intro idx hlt
  by_cases h : (idx 0).val < 400 * t.val
  · refine (View.read_writes_cons_rows_of_not_mem (W := 400) scM0_1.view _ hinb _ [] idx hoff rfl (Or.inl h)).trans ?_
    rw [View.writes_nil, hw.read_unread]
    exact hb idx h
  · have hq : (⟨(idx 0).val / 400, by have := ValueIdx.idx2_lt0 idx; rw [N50]; omega⟩ : Fin cfg0.N) = t :=
      Fin.ext (by show (idx 0).val / 400 = t.val; omega)
    refine (View.read_writes_cons_rows_of_mem scM0_1.view _ hinb _ [] idx
      (ix2 (n0 := 400) (n1 := 128) ⟨(idx 0).val % 400, Nat.mod_lt _ (by norm_num)⟩ ⟨(idx 1).val, ValueIdx.idx2_lt1 idx⟩) hoff
      (by show (idx 0).val = 400 * t.val + (idx 0).val % 400; omega) rfl).trans ?_
    unfold x1full
    rw [hq]

/-- Every row is below 400 * 25 = 10000. -/
theorem inv_full (c : Dev nD) (b : Vec F S10000x128 .f32)
    (hb : ∀ idx : S10000x128.Idx, (idx 0).val < 400 * 25 → b idx = x1full m c idx) : b = x1full m c :=
  funext fun idx => hb idx (by have := ValueIdx.idx2_lt0 idx; omega)

end Cert.KernelIdeal.Hand

end
-- ==== Proof.KI.RunLib.lean ====
import proofs.«167823_g73521250173546_cont_sun_c4_545_21_alg».proof.Proof.KI.Conds
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Reading a whole memref is a bijection, so owning it at `X` is holding it at the one raw contents that read `X`. -/
theorem owns_eq_unread (c : Dev nD) {sp : Space} {sh : Shape} {e : EltTy} {m : Memref sig .tc sp sh e} (h : m.IsWhole)
    (q : PosShare TreeShare) (X : Vec F sh e) :
    (owns (c : Thread nD τ) m q X : sProp 𝕄) = iprop(m.view.loc (c : Thread nD τ) ↦[m.view.set]{q} h.unread X) := by
  have h₁ : (owns (c : Thread nD τ) m q X : sProp 𝕄) ⊢ iprop(m.view.loc (c : Thread nD τ) ↦[m.view.set]{q} h.unread X) := by
    unfold owns
    iintro ⟨%f, %hf, H⟩
    obtain rfl := h.eq_unread hf
    iexact H
  have h₂ : (iprop(m.view.loc (c : Thread nD τ) ↦[m.view.set]{q} h.unread X) : sProp 𝕄) ⊢ owns (c : Thread nD τ) m q X := by
    unfold owns
    iintro H
    iexists _; isplitr; · ipureintro; exact h.read_unread _
    iexact H
  exact BI.equiv_iff.mp ⟨h₁, h₂⟩

theorem off00 : (![0, 0] : Fin 2 → Nat) = fun _ => 0 := funext fun a => by fin_cases a <;> rfl

/-- A load through the whole rectangle of a rank-2 shape reads the contents, whatever the extents. -/
theorem ld_whole2 {e : EltTy} (sz : Fin 2 → Nat) (inb : ∀ a, (![0, 0] : Fin 2 → Nat) a + sz a ≤ sz a) (X : Vec F ⟨2, sz⟩ e) :
    View.ld X (Rect.unit (s := ⟨2, sz⟩) ![0, 0] sz inb) = X := View.ld_unit_zero (S := ⟨2, sz⟩) off00 inb X

/-- The same load of what one store through that rectangle left reads the stored payload. -/
theorem readCov_whole2 {e : EltTy} {κ : Kind} {sp : Space} (sz : Fin 2 → Nat) (v : View sig κ sp ⟨2, sz⟩ e)
    (inb : ∀ a, (![0, 0] : Fin 2 → Nat) a + sz a ≤ sz a) (w : Vec F ⟨2, sz⟩ e) :
    v.readCov [(⟨Rect.unit (s := ⟨2, sz⟩) ![0, 0] sz inb, w⟩ : View.Piece (Elt F) ⟨2, sz⟩ e)] (Rect.unit (s := ⟨2, sz⟩) ![0, 0] sz inb).toLoadRect = w :=
  View.readCov_unit_zero (S := ⟨2, sz⟩) v off00 inb w

end Cert.KernelIdeal.Hand

end
-- ==== Proof.KI.RunA.lean ====
import proofs.«167823_g73521250173546_cont_sun_c4_545_21_alg».proof.Proof.KI.RunLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S128x256 .f32) (harg9 : arg9.IsWhole) (arg10 : Memref sig .tc .vmem S64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S128x10 .f32) (harg22 : arg22.IsWhole) (arg23 : Memref sig .tc .vmem S1x10 .f32) (harg23 : arg23.IsWhole) (arg24 : Memref sig .tc .vmem S128x256 .f32) (harg24 : arg24.IsWhole) (arg25 : Memref sig .tc .vmem S64x256 .f32) (harg25 : arg25.IsWhole) (arg26 : Memref sig .tc .vmem S1x256 .f32) (harg26 : arg26.IsWhole) (arg27 : Memref sig .tc .vmem S256x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S400x10 .f32) (harg31 : arg31.IsWhole) (arg32 : Memref sig .tc .vmem S400x128 .f32) (harg32 : arg32.IsWhole) (arg33 : Memref sig .tc .vmem S400x192 .f32) (harg33 : arg33.IsWhole) (arg34 : Memref sig .tc .vmem S10000x128 .bf16) (harg34 : arg34.IsWhole) (arg35 : Memref sig .tc .vmem S10000x128 .f32) (harg35 : arg35.IsWhole) (arg36 : Memref sig .tc .vmem S10000x64 .bf16) (harg36 : arg36.IsWhole)
  (h1 : cond1 i) (h2 : cond2 i) (h3 : ¬cond3 i) (h4 : ¬cond4 i)
  (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32)
  (xs1 : Vec F S10000x128 .f32)
include h1 h2 h3 h4

set_option maxHeartbeats 1000000 in
/-- At the first point of sweep 1 the body writes the support whole and the first row tile of activations; every other buffer comes back unchanged. -/
noncomputable def kernelRun0_A :
    Σ' (LS0 : List (View.Piece (Elt F) S10000x128 .bf16)), { LS1 : List (View.Piece (Elt F) S10000x128 .f32) //
      ∀ (xi29 : Vec F S400x10 .f32) (xi30 : Vec F S400x128 .f32) (xi31 : Vec F S400x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
            ∗ owns (c : Thread nD τ) arg31 fullShare xi29 ∗ owns (c : Thread nD τ) arg32 fullShare xi30 ∗ owns (c : Thread nD τ) arg33 fullShare xi31
            ∗ (∃ d, owns (c : Thread nD τ) arg34 fullShare d) ∗ owns (c : Thread nD τ) arg35 fullShare xs1 ∗ (∃ d, owns (c : Thread nD τ) arg36 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
                  ∗ owns (c : Thread nD τ) arg31 fullShare xi29 ∗ owns (c : Thread nD τ) arg32 fullShare xi30 ∗ owns (c : Thread nD τ) arg33 fullShare xi31
                  ∗ (∃ f, arg34.view.loc (c : Thread nD τ) ↦[arg34.view.set]{fullShare} arg34.view.writes (Elt F) f LS0)
                  ∗ (arg35.view.loc (c : Thread nD τ) ↦[arg35.view.set]{fullShare} arg35.view.writes (Elt F) (harg35.unread xs1) LS1)
                  ∗ (∃ d, owns (c : Thread nD τ) arg36 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, fun xi29 xi30 xi31 E K => ?run⟩
  case run =>
    simp only [owns_eq_unread c harg2, owns_eq_unread c harg3, owns_eq_unread c harg4, owns_eq_unread c harg5, owns_eq_unread c harg6, owns_eq_unread c harg34, owns_eq_unread c harg35]
    iintro ⟨H0, H1, H2, H3, H4, H5, H6, H7, H8, H9, H10, H11, H12, H13, H14, H15, H16, H17, H18, H19, H20, H21, H22, H23, H24, H25, H26, H27, H28, H29, H30, H31, ⟨%dHS0, HS0⟩, HS1, HS2, Hk⟩
    simp only [cc0__body_eq_skeleton]; unfold cc0__body_skel
    sl_exec (disch := first | exact h1 | exact h2 | exact h3 | exact h4)
    sl_step
    iapply Hk
    iframe
    iexists _; iexact HS0

set_option maxHeartbeats 1000000 in
theorem kernelRun0_A_pieces0 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs1).1
      = [⟨Rect.unit (s := S10000x128) ![0, 0] S10000x128.size inb_S10000x128_S10000x128_0_0, k0_pay1 x2 x3⟩] := by
  unfold kernelRun0_A; dsimp only
  sl_unfold_run_names
  simp only [View.readAt_eq_ld, Memref.IsWhole.read_unread, ld_whole2]

set_option maxHeartbeats 1000000 in
theorem kernelRun0_A_pieces1 :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs1).2.1
      = [⟨Rect.unit (s := S10000x128) (k0_off1 i) S400x128.size (k0_off1_inb i h2), k0_pay2 x0 (k0_pay1 x2 x3) x1 (k0_pay1 x2 x3) x4⟩] := by
  unfold kernelRun0_A; dsimp only
  sl_unfold_run_names
  simp only [View.readAt_eq_ld, Memref.IsWhole.read_unread, ld_whole2, readCov_whole2]

end Cert.KernelIdeal.Hand

end
-- ==== Proof.KI.OutRead.lean ====
import proofs.«167823_g73521250173546_cont_sun_c4_545_21_alg».proof.Proof.KI.Data
import Idealize.ShloMosaic.Lib.Pipeline.Value
import Idealize.ShloMosaic.Lib.Pipeline.FrameBody
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
open Cert.KernelIdeal Cert.KernelIdeal.Gen

variable {F : FTy → Type} [FloatOps F]

variable (m : (ℓ : Loc nD τ sig) → Buf (Elt F) ℓ)

/-- A unit-stride rectangle places y at the offsets plus y, and the offsets here are row 400 (t % 25), column 0. -/
theorem x1s_ld (c : Dev nD) (t : Fin cfg0.N) (ht : 25 ≤ t.val)
    (hinb : ∀ a, k0_off2 (grid0.coords t) a + S400x128.size a ≤ S10000x128.size a) :
    View.ld (Val := Elt F) (x1full m c) (Rect.unit (s := S10000x128) (k0_off2 (grid0.coords t)) S400x128.size hinb)
      = x1s m c t := by
  revert hinb
  rw [off2_val t]
  intro hinb
  funext y
  show x1full m c ((Rect.unit (s := S10000x128) ![400 * (t.val % 25), 0] S400x128.size hinb).idx y) = x1s m c t y
  unfold x1s
  refine congrArg (x1full m c) (funext fun a => Fin.ext ?_)
  match a with
  | ⟨0, _⟩ => show 400 * (t.val % 25) + 1 * (y 0).val = 400 * (t.val % 25) + (y 0).val; rw [Nat.one_mul]
  | ⟨1, _⟩ => show 0 + 1 * (y 1).val = (y 1).val; rw [Nat.one_mul, Nat.zero_add]

/-- One piece that is the whole shape at zero offsets covers every index, so the read after the write is the payload. -/
theorem read_writes_whole {κ : Kind} {sp : Space} {S : Shape} {e : EltTy} (v : View sig κ sp S e)
    (f : v.ty.Contents (Elt F)) {off : Fin S.rank → ℕ} (hz : off = fun _ => 0)
    (inb : ∀ a, off a + S.size a ≤ S.size a) (w : S.Idx → Elt F e) :
    v.read (Elt F) (v.writes (Elt F) f [(⟨Rect.unit (s := S) off S.size inb, w⟩ : View.Piece (Elt F) S e)]) = w :=
  (View.read_writes_eq_canon v f [(⟨Rect.unit (s := S) off S.size inb, w⟩ : View.Piece (Elt F) S e)]
    (fun y => ⟨(⟨Rect.unit (s := S) off S.size inb, w⟩ : View.Piece (Elt F) S e), List.mem_singleton_self _,
      View.mem_set_unit_zero hz inb y⟩)).trans (View.canon_unit_zero hz inb w)

/-- Cut into column blocks of width 64 the two pieces tile the [400, 192] shape. -/
theorem read_writes_cat {κ : Kind} {sp : Space} (v : View sig κ sp S400x192 .f32) (f : v.ty.Contents (Elt F))
    (h₁ : ∀ a, (![0, 0] : Fin 2 → ℕ) a + S400x128.size a ≤ S400x192.size a)
    (h₂ : ∀ a, (![0, 128] : Fin 2 → ℕ) a + S400x64.size a ≤ S400x192.size a)
    (x1t : Vec F S400x128 .f32) (x2t : Vec F S400x64 .f32) :
    v.read (Elt F) (v.writes (Elt F) f [⟨Rect.unit (s := S400x192) ![0, 128] S400x64.size h₂, x2t⟩,
        ⟨Rect.unit (s := S400x192) ![0, 0] S400x128.size h₁, x1t⟩])
      = View.canon (Val := Elt F) [⟨Rect.unit (s := S400x192) ![0, 128] S400x64.size h₂, x2t⟩,
        ⟨Rect.unit (s := S400x192) ![0, 0] S400x128.size h₁, x1t⟩] :=
  View.read_writes_eq_canon v f _ (View.cover_of_tiledBy _ ![400, 64] (by sl_kernel_rfl))

end Cert.KernelIdeal.Hand

end
-- ==== Proof.KI.BodyA.lean ====
import proofs.«167823_g73521250173546_cont_sun_c4_545_21_alg».proof.Proof.KI.BodyDefs
import proofs.«167823_g73521250173546_cont_sun_c4_545_21_alg».proof.Proof.KI.InvStep
import proofs.«167823_g73521250173546_cont_sun_c4_545_21_alg».proof.Proof.KI.RunA
import proofs.«167823_g73521250173546_cont_sun_c4_545_21_alg».proof.Proof.KI.OutRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_A (c : Dev nD) (t : Fin cfg0.N) (hA : t.val = 0) :
    bodyPre m c t ⊢ wp frame (wpE (defs₀ (F := F)) Variants.none c none) Set.univ (bodyAt0 t) (fun _ => bodyPost m c t) := by
  obtain rfl : t = t0 := Fin.ext hA
  have hB : (t0 : Fin cfg0.N).val < 25 := Nat.succ_pos 24
  have h1 : cond1 (grid0.coords t0) := (hcond1 t0).mpr rfl
  have h2 : cond2 (grid0.coords t0) := (hcond2 t0).mpr hB
  have h3 : ¬cond3 (grid0.coords t0) := fun h => by have := (hcond3 t0).mp h; exact absurd this (by decide)
  have h4 : ¬cond4 (grid0.coords t0) := fun h => by have := (hcond4 t0).mp h; exact absurd this (by decide)
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).owesAt () t0.succ = (dats m 0 c).owesAt () t0.castSucc from rfl, Phi_eq, Phi_eq]
  simp only [Fin.coe_castSucc, Fin.val_succ]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29_idle m c t0 hB, leaves0_30_idle m c t0 hB, leaves0_31_idle m c t0 hB]
  unfold PhiS
  iintro ⟨⟨⟨%a, %b, %e, %hInv, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((kernelRun0_A (F := F) c (h1 := h1) (h2 := h2) (h3 := h3) (h4 := h4) ..).2.2 _ _ _ Set.univ _)
  iframe H0 H1 H2 H3 H4 H5 H6 H7 H8 H9 H10 H11 H12 H13 H14 H15 H16 H17 H18 H19 H20 H21 H22 H23 H24 H25 H26 H27 H28 H29 H30 H31 HS1
  isplitl [HS0]; · iexists _; iexact HS0
  isplitl [HS2]; · iexists _; iexact HS2
  iintro ⟨H0, H1, H2, H3, H4, H5, H6, H7, H8, H9, H10, H11, H12, H13, H14, H15, H16, H17, H18, H19, H20, H21, H22, H23, H24, H25, H26, H27, H28, H29, H30, H31, ⟨%f0, HS0⟩, HS1, ⟨%e', HS2⟩⟩
  iframe Hg Ho H0 H1 H2 H3 H4 H5 H6 H7 H8 H9 H10 H11 H12 H13 H14 H15 H16 H17 H18 H19 H20 H21 H22 H23 H24 H25 H26 H27 H28
  isplitr [H29 H30 H31]
  · iexists _, _, e'
    iframe HS2
    isplitr
    swap
    · isplitl [HS0]
      · unfold owns; iexists _; iframe HS0; ipureintro; rfl
      unfold owns; iexists _; iframe HS1; ipureintro; rfl
    ipureintro
    refine ⟨fun _ => ?_, fun idx hidx => ?_, fun h => absurd h (by decide)⟩
    · rw [kernelRun0_A_pieces0, read_writes_whole _ _ off00 _ _]
      rfl
    · rw [kernelRun0_A_pieces1]
      rw [Nat.min_eq_left (by decide : (t0 : Fin cfg0.N).val + 1 ≤ 25)] at hidx
      refine inv_step m c t0 hB b (fun idx h => absurd h (by show ¬ (idx 0).val < 400 * 0; omega)) _ ?_ _ _ idx hidx
      rw [off1_val t0]; rfl
  isplitl [H29]; · iexists _; iexact H29
  isplitl [H30]; · iexists _; iexact H30
  iexists _; iexact H31

end Cert.KernelIdeal.Hand

end
-- ==== Proof.KI.RunB.lean ====
import proofs.«167823_g73521250173546_cont_sun_c4_545_21_alg».proof.Proof.KI.RunLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S128x256 .f32) (harg9 : arg9.IsWhole) (arg10 : Memref sig .tc .vmem S64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S128x10 .f32) (harg22 : arg22.IsWhole) (arg23 : Memref sig .tc .vmem S1x10 .f32) (harg23 : arg23.IsWhole) (arg24 : Memref sig .tc .vmem S128x256 .f32) (harg24 : arg24.IsWhole) (arg25 : Memref sig .tc .vmem S64x256 .f32) (harg25 : arg25.IsWhole) (arg26 : Memref sig .tc .vmem S1x256 .f32) (harg26 : arg26.IsWhole) (arg27 : Memref sig .tc .vmem S256x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S400x10 .f32) (harg31 : arg31.IsWhole) (arg32 : Memref sig .tc .vmem S400x128 .f32) (harg32 : arg32.IsWhole) (arg33 : Memref sig .tc .vmem S400x192 .f32) (harg33 : arg33.IsWhole) (arg34 : Memref sig .tc .vmem S10000x128 .bf16) (harg34 : arg34.IsWhole) (arg35 : Memref sig .tc .vmem S10000x128 .f32) (harg35 : arg35.IsWhole) (arg36 : Memref sig .tc .vmem S10000x64 .bf16) (harg36 : arg36.IsWhole)
  (h1 : ¬cond1 i) (h2 : cond2 i) (h3 : ¬cond3 i) (h4 : ¬cond4 i)
  (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32)
  (xs0 : Vec F S10000x128 .bf16) (xs1 : Vec F S10000x128 .f32)
include h1 h2 h3 h4

set_option maxHeartbeats 1000000 in
/-- At a later point of sweep 1 the body writes one row tile of activations; every other buffer comes back unchanged. -/
noncomputable def kernelRun0_B :
    { LS1 : List (View.Piece (Elt F) S10000x128 .f32) //
      ∀ (xi29 : Vec F S400x10 .f32) (xi30 : Vec F S400x128 .f32) (xi31 : Vec F S400x192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
            ∗ owns (c : Thread nD τ) arg31 fullShare xi29 ∗ owns (c : Thread nD τ) arg32 fullShare xi30 ∗ owns (c : Thread nD τ) arg33 fullShare xi31
            ∗ owns (c : Thread nD τ) arg34 fullShare xs0 ∗ owns (c : Thread nD τ) arg35 fullShare xs1 ∗ (∃ d, owns (c : Thread nD τ) arg36 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
                  ∗ owns (c : Thread nD τ) arg31 fullShare xi29 ∗ owns (c : Thread nD τ) arg32 fullShare xi30 ∗ owns (c : Thread nD τ) arg33 fullShare xi31
                  ∗ owns (c : Thread nD τ) arg34 fullShare xs0
                  ∗ (arg35.view.loc (c : Thread nD τ) ↦[arg35.view.set]{fullShare} arg35.view.writes (Elt F) (harg35.unread xs1) LS1)
                  ∗ (∃ d, owns (c : Thread nD τ) arg36 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, fun xi29 xi30 xi31 E K => ?run⟩
  case run =>
    simp only [owns_eq_unread c harg2, owns_eq_unread c harg3, owns_eq_unread c harg6, owns_eq_unread c harg34, owns_eq_unread c harg35]
    iintro ⟨H0, H1, H2, H3, H4, H5, H6, H7, H8, H9, H10, H11, H12, H13, H14, H15, H16, H17, H18, H19, H20, H21, H22, H23, H24, H25, H26, H27, H28, H29, H30, H31, HS0, HS1, HS2, Hk⟩
    simp only [cc0__body_eq_skeleton]; unfold cc0__body_skel
    sl_exec (disch := first | exact h1 | exact h2 | exact h3 | exact h4)
    sl_step
    iapply Hk
    iframe

set_option maxHeartbeats 1000000 in
theorem kernelRun0_B_pieces :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1).1
      = [⟨Rect.unit (s := S10000x128) (k0_off1 i) S400x128.size (k0_off1_inb i h2), k0_pay2 x0 xs0 x1 xs0 x4⟩] := by
  unfold kernelRun0_B; dsimp only
  simp only [View.readAt_eq_ld, Memref.IsWhole.read_unread, ld_whole2]

end Cert.KernelIdeal.Hand

end
-- ==== Proof.KI.BodyB.lean ====
import proofs.«167823_g73521250173546_cont_sun_c4_545_21_alg».proof.Proof.KI.BodyDefs
import proofs.«167823_g73521250173546_cont_sun_c4_545_21_alg».proof.Proof.KI.InvStep
import proofs.«167823_g73521250173546_cont_sun_c4_545_21_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_B (c : Dev nD) (t : Fin cfg0.N) (h0 : t.val ≠ 0) (hB : t.val < 25) :
    bodyPre m c t ⊢ wp frame (wpE (defs₀ (F := F)) Variants.none c none) Set.univ (bodyAt0 t) (fun _ => bodyPost m c t) := by
  have h1 : ¬cond1 (grid0.coords t) := fun h => h0 ((hcond1 t).mp h)
  have h2 : cond2 (grid0.coords t) := (hcond2 t).mpr hB
  have h3 : ¬cond3 (grid0.coords t) := fun h => by have := (hcond3 t).mp h; omega
  have h4 : ¬cond4 (grid0.coords t) := fun h => by have := (hcond4 t).mp h; omega
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).owesAt () t.succ = (dats m 0 c).owesAt () t.castSucc from rfl, Phi_eq, Phi_eq]
  simp only [Fin.coe_castSucc, Fin.val_succ]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29_idle m c t hB, leaves0_30_idle m c t hB, leaves0_31_idle m c t hB]
  unfold PhiS
  iintro ⟨⟨⟨%a, %b, %e, %hInv, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  obtain ⟨ha, hb, he⟩ := hInv
  obtain rfl : a = s1val m c := ha (by omega)
  iapply ((kernelRun0_B (F := F) c (h1 := h1) (h2 := h2) (h3 := h3) (h4 := h4) ..).2 _ _ _ Set.univ _)
  iframe H0 H1 H2 H3 H4 H5 H6 H7 H8 H9 H10 H11 H12 H13 H14 H15 H16 H17 H18 H19 H20 H21 H22 H23 H24 H25 H26 H27 H28 H29 H30 H31 HS0 HS1
  isplitl [HS2]; · iexists _; iexact HS2
  iintro ⟨H0, H1, H2, H3, H4, H5, H6, H7, H8, H9, H10, H11, H12, H13, H14, H15, H16, H17, H18, H19, H20, H21, H22, H23, H24, H25, H26, H27, H28, H29, H30, H31, HS0, HS1, ⟨%e', HS2⟩⟩
  iframe Hg Ho H0 H1 H2 H3 H4 H5 H6 H7 H8 H9 H10 H11 H12 H13 H14 H15 H16 H17 H18 H19 H20 H21 H22 H23 H24 H25 H26 H27 H28
  isplitr [H29 H30 H31]
  · iexists (s1val m c), _, e'
    iframe HS0 HS2
    isplitr
    swap
    · unfold owns; iexists _; iframe HS1; ipureintro; rfl
    ipureintro
    refine ⟨fun _ => rfl, fun idx hidx => ?_, fun h => absurd h (by omega)⟩
    rw [Nat.min_eq_left (by omega : t.val + 1 ≤ 25)] at hidx
    rw [Nat.min_eq_left (by omega : t.val ≤ 25)] at hb
    rw [kernelRun0_B_pieces]
    refine inv_step m c t hB b hb _ ?_ _ _ idx hidx
    rw [off1_val t, Nat.mod_eq_of_lt hB]
  isplitl [H29]; · iexists _; iexact H29
  isplitl [H30]; · iexists _; iexact H30
  iexists _; iexact H31

end Cert.KernelIdeal.Hand

end
-- ==== Proof.KI.RunC.lean ====
import proofs.«167823_g73521250173546_cont_sun_c4_545_21_alg».proof.Proof.KI.RunLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S128x256 .f32) (harg9 : arg9.IsWhole) (arg10 : Memref sig .tc .vmem S64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S128x10 .f32) (harg22 : arg22.IsWhole) (arg23 : Memref sig .tc .vmem S1x10 .f32) (harg23 : arg23.IsWhole) (arg24 : Memref sig .tc .vmem S128x256 .f32) (harg24 : arg24.IsWhole) (arg25 : Memref sig .tc .vmem S64x256 .f32) (harg25 : arg25.IsWhole) (arg26 : Memref sig .tc .vmem S1x256 .f32) (harg26 : arg26.IsWhole) (arg27 : Memref sig .tc .vmem S256x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S400x10 .f32) (harg31 : arg31.IsWhole) (arg32 : Memref sig .tc .vmem S400x128 .f32) (harg32 : arg32.IsWhole) (arg33 : Memref sig .tc .vmem S400x192 .f32) (harg33 : arg33.IsWhole) (arg34 : Memref sig .tc .vmem S10000x128 .bf16) (harg34 : arg34.IsWhole) (arg35 : Memref sig .tc .vmem S10000x128 .f32) (harg35 : arg35.IsWhole) (arg36 : Memref sig .tc .vmem S10000x64 .bf16) (harg36 : arg36.IsWhole)
  (h1 : ¬cond1 i) (h2 : ¬cond2 i) (h3 : cond3 i) (h4 : cond4 i)
  (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32)
  (xs0 : Vec F S10000x128 .bf16) (xs1 : Vec F S10000x128 .f32)
include h1 h2 h3 h4

set_option maxHeartbeats 1000000 in
/-- At the first point of sweep 2 the body writes the second support whole and the three result blocks; every other buffer comes back unchanged. -/
noncomputable def kernelRun0_C :
    Σ' (L29 : List (View.Piece (Elt F) S400x10 .f32)) (L30 : List (View.Piece (Elt F) S400x128 .f32)) (L31 : List (View.Piece (Elt F) S400x192 .f32)), { LS2 : List (View.Piece (Elt F) S10000x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
            ∗ (∃ d, owns (c : Thread nD τ) arg31 fullShare d) ∗ (∃ d, owns (c : Thread nD τ) arg32 fullShare d) ∗ (∃ d, owns (c : Thread nD τ) arg33 fullShare d)
            ∗ owns (c : Thread nD τ) arg34 fullShare xs0 ∗ owns (c : Thread nD τ) arg35 fullShare xs1 ∗ (∃ d, owns (c : Thread nD τ) arg36 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
                  ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31)
                  ∗ owns (c : Thread nD τ) arg34 fullShare xs0 ∗ owns (c : Thread nD τ) arg35 fullShare xs1 ∗ (∃ f, arg36.view.loc (c : Thread nD τ) ↦[arg36.view.set]{fullShare} arg36.view.writes (Elt F) f LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, ?_, ?_, fun E K => ?run⟩
  case run =>
    simp (disch := assumption) only [owns_eq_unread]
    iintro ⟨H0, H1, H2, H3, H4, H5, H6, H7, H8, H9, H10, H11, H12, H13, H14, H15, H16, H17, H18, H19, H20, H21, H22, H23, H24, H25, H26, H27, H28, ⟨%dH29, H29⟩, ⟨%dH30, H30⟩, ⟨%dH31, H31⟩, HS0, HS1, ⟨%dHS2, HS2⟩, Hk⟩
    simp only [cc0__body_eq_skeleton]; unfold cc0__body_skel
    simp only [k0_part1_eq_skeleton, k0_part2_eq_skeleton, k0_part3_eq_skeleton]; unfold k0_part1_skel k0_part2_skel k0_part3_skel
    sl_exec (disch := first | exact h1 | exact h2 | exact h3 | exact h4)
    sl_step
    iapply Hk
    iframe
    isplitl [H29]; · iexists _; iexact H29
    isplitl [H30]; · iexists _; iexact H30
    isplitl [H31]; · iexists _; iexact H31
    iexists _; iexact HS2

set_option maxHeartbeats 1000000 in
theorem kernelRun0_C_pieces29 :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1).1
      = [⟨Rect.unit (s := S400x10) ![0, 0] S400x10.size inb_S400x10_S400x10_0_0,
          k0_pay12 (k0_pay8 (k0_pay6 (View.ld xs1 (Rect.unit (s := S10000x128) (k0_off2 i) S400x128.size (k0_off2_inb i h4))) x0 (k0_pay3 xs1 x5) x1 (k0_pay3 xs1 x5) x6 x7 x8) (k0_pay7 x9) x10 x11 x12 x13 x14 x15)
            (k0_pay9 x16) (k0_pay10 x17) (k0_pay11 x18) x19 x20 x21⟩] := by
  unfold kernelRun0_C; dsimp only
  sl_unfold_run_names
  simp only [View.readAt_eq_ld, Memref.IsWhole.read_unread, ld_whole2, readCov_whole2]

set_option maxHeartbeats 1000000 in
theorem kernelRun0_C_pieces30 :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1).2.1
      = [⟨Rect.unit (s := S400x128) ![0, 0] S400x128.size inb_S400x128_S400x128_0_0,
          k0_pay4 (k0_pay5 x0 (k0_pay3 xs1 x5) x1 (k0_pay3 xs1 x5) x6) (k0_pay13 (View.ld xs1 (Rect.unit (s := S10000x128) (k0_off2 i) S400x128.size (k0_off2_inb i h4))) x22) x23 x24 x25 x26 x27 x28⟩] := by
  unfold kernelRun0_C; dsimp only
  sl_unfold_run_names
  simp only [View.readAt_eq_ld, Memref.IsWhole.read_unread, ld_whole2, readCov_whole2]

set_option maxHeartbeats 1000000 in
theorem kernelRun0_C_pieces31 :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1).2.2.1
      = [⟨Rect.unit (s := S400x192) ![0, 128] S400x64.size inb_S400x192_S400x64_0_128, k0_pay5 x0 (k0_pay3 xs1 x5) x1 (k0_pay3 xs1 x5) x6⟩,
         ⟨Rect.unit (s := S400x192) ![0, 0] S400x128.size inb_S400x192_S400x128_0_0, (View.ld xs1 (Rect.unit (s := S10000x128) (k0_off2 i) S400x128.size (k0_off2_inb i h4)))⟩] := by
  unfold kernelRun0_C; dsimp only
  sl_unfold_run_names
  simp only [View.readAt_eq_ld, Memref.IsWhole.read_unread, ld_whole2, readCov_whole2]

set_option maxHeartbeats 1000000 in
theorem kernelRun0_C_piecesS2 :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1).2.2.2.1
      = [⟨Rect.unit (s := S10000x64) ![0, 0] S10000x64.size inb_S10000x64_S10000x64_0_0, k0_pay3 xs1 x5⟩] := by
  unfold kernelRun0_C; dsimp only
  sl_unfold_run_names
  simp only [View.readAt_eq_ld, Memref.IsWhole.read_unread, ld_whole2, readCov_whole2]

end Cert.KernelIdeal.Hand

end
-- ==== Proof.KI.BodyC.lean ====
import proofs.«167823_g73521250173546_cont_sun_c4_545_21_alg».proof.Proof.KI.BodyDefs
import proofs.«167823_g73521250173546_cont_sun_c4_545_21_alg».proof.Proof.KI.InvStep
import proofs.«167823_g73521250173546_cont_sun_c4_545_21_alg».proof.Proof.KI.OutRead
import proofs.«167823_g73521250173546_cont_sun_c4_545_21_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_C (c : Dev nD) (t : Fin cfg0.N) (hC : t.val = 25) :
    bodyPre m c t ⊢ wp frame (wpE (defs₀ (F := F)) Variants.none c none) Set.univ (bodyAt0 t) (fun _ => bodyPost m c t) := by
  obtain rfl : t = t25 := Fin.ext hC
  have hL : 25 ≤ (t25 : Fin cfg0.N).val := Nat.le_refl 25
  have h1 : ¬cond1 (grid0.coords t25) := fun h => by have := (hcond1 t25).mp h; exact absurd this (by decide)
  have h2 : ¬cond2 (grid0.coords t25) := fun h => by have := (hcond2 t25).mp h; exact absurd this (by decide)
  have h3 : cond3 (grid0.coords t25) := (hcond3 t25).mpr rfl
  have h4 : cond4 (grid0.coords t25) := (hcond4 t25).mpr hL
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).owesAt () t25.succ = (dats m 0 c).owesAt () t25.castSucc from rfl, Phi_eq, Phi_eq]
  simp only [Fin.coe_castSucc, Fin.val_succ]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29_live m c t25 hL, leaves0_30_live m c t25 hL, leaves0_31_live m c t25 hL]
  unfold PhiS
  iintro ⟨⟨⟨%a, %b, %e, %hInv, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  obtain ⟨ha, hb, he⟩ := hInv
  obtain rfl : a = s1val m c := ha (by decide)
  obtain rfl : b = x1full m c := inv_full m c b (by rw [Nat.min_eq_right hL] at hb; exact hb)
  iapply ((kernelRun0_C (F := F) c (h1 := h1) (h2 := h2) (h3 := h3) (h4 := h4) ..).2.2.2.2 Set.univ _)
  iframe H0 H1 H2 H3 H4 H5 H6 H7 H8 H9 H10 H11 H12 H13 H14 H15 H16 H17 H18 H19 H20 H21 H22 H23 H24 H25 H26 H27 H28 HS0 HS1
  isplitl [H29]; · iexists _; iexact H29
  isplitl [H30]; · iexists _; iexact H30
  isplitl [H31]; · iexists _; iexact H31
  isplitl [HS2]; · iexists _; iexact HS2
  iintro ⟨H0, H1, H2, H3, H4, H5, H6, H7, H8, H9, H10, H11, H12, H13, H14, H15, H16, H17, H18, H19, H20, H21, H22, H23, H24, H25, H26, H27, H28, ⟨%f29, H29⟩, ⟨%f30, H30⟩, ⟨%f31, H31⟩, HS0, HS1, ⟨%f2, HS2⟩⟩
  iframe Hg Ho H0 H1 H2 H3 H4 H5 H6 H7 H8 H9 H10 H11 H12 H13 H14 H15 H16 H17 H18 H19 H20 H21 H22 H23 H24 H25 H26 H27 H28
  isplitl [HS0 HS1 HS2]
  · iexists (s1val m c), (x1full m c), _
    iframe HS0 HS1
    isplitr
    swap
    · unfold owns; iexists _; iframe HS2; ipureintro; rfl
    ipureintro
    refine ⟨fun _ => rfl, fun _ _ => rfl, fun _ => ?_⟩
    rw [kernelRun0_C_piecesS2, read_writes_whole _ _ off00 _ _]
    rfl
  isplitl [H29]
  · unfold owns; iexists _; iframe H29; ipureintro
    rw [kernelRun0_C_pieces29, read_writes_whole _ _ off00 _ _, x1s_ld m c t25 hL _]
    rfl
  isplitl [H30]
  · unfold owns; iexists _; iframe H30; ipureintro
    rw [kernelRun0_C_pieces30, read_writes_whole _ _ off00 _ _, x1s_ld m c t25 hL _]
    rfl
  unfold owns; iexists _; iframe H31; ipureintro
  rw [kernelRun0_C_pieces31, read_writes_cat _ _ _ _ _ _, x1s_ld m c t25 hL _]
  rfl

end Cert.KernelIdeal.Hand

end
-- ==== Proof.KI.RunD.lean ====
import proofs.«167823_g73521250173546_cont_sun_c4_545_21_alg».proof.Proof.KI.RunLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S128x256 .f32) (harg9 : arg9.IsWhole) (arg10 : Memref sig .tc .vmem S64x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S128x10 .f32) (harg22 : arg22.IsWhole) (arg23 : Memref sig .tc .vmem S1x10 .f32) (harg23 : arg23.IsWhole) (arg24 : Memref sig .tc .vmem S128x256 .f32) (harg24 : arg24.IsWhole) (arg25 : Memref sig .tc .vmem S64x256 .f32) (harg25 : arg25.IsWhole) (arg26 : Memref sig .tc .vmem S1x256 .f32) (harg26 : arg26.IsWhole) (arg27 : Memref sig .tc .vmem S256x128 .f32) (harg27 : arg27.IsWhole) (arg28 : Memref sig .tc .vmem S1x128 .f32) (harg28 : arg28.IsWhole) (arg29 : Memref sig .tc .vmem S128x128 .f32) (harg29 : arg29.IsWhole) (arg30 : Memref sig .tc .vmem S1x128 .f32) (harg30 : arg30.IsWhole) (arg31 : Memref sig .tc .vmem S400x10 .f32) (harg31 : arg31.IsWhole) (arg32 : Memref sig .tc .vmem S400x128 .f32) (harg32 : arg32.IsWhole) (arg33 : Memref sig .tc .vmem S400x192 .f32) (harg33 : arg33.IsWhole) (arg34 : Memref sig .tc .vmem S10000x128 .bf16) (harg34 : arg34.IsWhole) (arg35 : Memref sig .tc .vmem S10000x128 .f32) (harg35 : arg35.IsWhole) (arg36 : Memref sig .tc .vmem S10000x64 .bf16) (harg36 : arg36.IsWhole)
  (h1 : ¬cond1 i) (h2 : ¬cond2 i) (h3 : ¬cond3 i) (h4 : cond4 i)
  (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (x7 : Vec F S128x256 .f32) (x8 : Vec F S64x256 .f32) (x9 : Vec F S1x256 .f32) (x10 : Vec F S1x256 .f32) (x11 : Vec F S1x256 .f32) (x12 : Vec F S1x256 .f32) (x13 : Vec F S1x256 .f32) (x14 : Vec F S256x128 .f32) (x15 : Vec F S1x128 .f32) (x16 : Vec F S1x128 .f32) (x17 : Vec F S1x128 .f32) (x18 : Vec F S1x128 .f32) (x19 : Vec F S1x128 .f32) (x20 : Vec F S128x10 .f32) (x21 : Vec F S1x10 .f32) (x22 : Vec F S128x256 .f32) (x23 : Vec F S64x256 .f32) (x24 : Vec F S1x256 .f32) (x25 : Vec F S256x128 .f32) (x26 : Vec F S1x128 .f32) (x27 : Vec F S128x128 .f32) (x28 : Vec F S1x128 .f32)
  (xs0 : Vec F S10000x128 .bf16) (xs1 : Vec F S10000x128 .f32) (xs2 : Vec F S10000x64 .bf16)
include h1 h2 h3 h4

set_option maxHeartbeats 1000000 in
/-- At a later point of sweep 2 the body writes the three result blocks; every other buffer comes back unchanged. -/
noncomputable def kernelRun0_D :
    Σ' (L29 : List (View.Piece (Elt F) S400x10 .f32)) (L30 : List (View.Piece (Elt F) S400x128 .f32)), { L31 : List (View.Piece (Elt F) S400x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
            ∗ (∃ d, owns (c : Thread nD τ) arg31 fullShare d) ∗ (∃ d, owns (c : Thread nD τ) arg32 fullShare d) ∗ (∃ d, owns (c : Thread nD τ) arg33 fullShare d)
            ∗ owns (c : Thread nD τ) arg34 fullShare xs0 ∗ owns (c : Thread nD τ) arg35 fullShare xs1 ∗ owns (c : Thread nD τ) arg36 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28
                  ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31)
                  ∗ owns (c : Thread nD τ) arg34 fullShare xs0 ∗ owns (c : Thread nD τ) arg35 fullShare xs1 ∗ owns (c : Thread nD τ) arg36 fullShare xs2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, ?_, fun E K => ?run⟩
  case run =>
    simp (disch := assumption) only [owns_eq_unread]
    iintro ⟨H0, H1, H2, H3, H4, H5, H6, H7, H8, H9, H10, H11, H12, H13, H14, H15, H16, H17, H18, H19, H20, H21, H22, H23, H24, H25, H26, H27, H28, ⟨%d29, H29⟩, ⟨%d30, H30⟩, ⟨%d31, H31⟩, HS0, HS1, HS2, Hk⟩
    simp only [cc0__body_eq_skeleton]; unfold cc0__body_skel
    simp only [k0_part1_eq_skeleton, k0_part2_eq_skeleton, k0_part3_eq_skeleton]; unfold k0_part1_skel k0_part2_skel k0_part3_skel
    sl_exec (disch := first | exact h1 | exact h2 | exact h3 | exact h4)
    sl_step
    iapply Hk
    iframe
    isplitl [H29]; · iexists _; iexact H29
    isplitl [H30]; · iexists _; iexact H30
    iexists _; iexact H31

set_option maxHeartbeats 1000000 in
theorem kernelRun0_D_pieces31 :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1 xs2).2.2.1
      = [⟨Rect.unit (s := S400x192) ![0, 128] S400x64.size inb_S400x192_S400x64_0_128, k0_pay5 x0 xs2 x1 xs2 x6⟩,
         ⟨Rect.unit (s := S400x192) ![0, 0] S400x128.size inb_S400x192_S400x128_0_0, (View.ld xs1 (Rect.unit (s := S10000x128) (k0_off2 i) S400x128.size (k0_off2_inb i h4)))⟩] := by
  unfold kernelRun0_D; dsimp only
  sl_unfold_run_names
  simp only [View.readAt_eq_ld, Memref.IsWhole.read_unread, ld_whole2]

set_option maxHeartbeats 1000000 in
theorem kernelRun0_D_pieces30 :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1 xs2).2.1
      = [⟨Rect.unit (s := S400x128) ![0, 0] S400x128.size inb_S400x128_S400x128_0_0,
          k0_pay4 (k0_pay5 x0 xs2 x1 xs2 x6) (k0_pay13 (View.ld xs1 (Rect.unit (s := S10000x128) (k0_off2 i) S400x128.size (k0_off2_inb i h4))) x22) x23 x24 x25 x26 x27 x28⟩] := by
  unfold kernelRun0_D; dsimp only
  sl_unfold_run_names
  simp only [View.readAt_eq_ld, Memref.IsWhole.read_unread, ld_whole2]

set_option maxHeartbeats 1000000 in
theorem kernelRun0_D_pieces29 :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 h1 h2 h3 h4 x0 x1 x2 x3 x4 x5 x6 x7 x8 x9 x10 x11 x12 x13 x14 x15 x16 x17 x18 x19 x20 x21 x22 x23 x24 x25 x26 x27 x28 xs0 xs1 xs2).1
      = [⟨Rect.unit (s := S400x10) ![0, 0] S400x10.size inb_S400x10_S400x10_0_0,
          k0_pay12 (k0_pay8 (k0_pay6 (View.ld xs1 (Rect.unit (s := S10000x128) (k0_off2 i) S400x128.size (k0_off2_inb i h4))) x0 xs2 x1 xs2 x6 x7 x8) (k0_pay7 x9) x10 x11 x12 x13 x14 x15) (k0_pay9 x16) (k0_pay10 x17) (k0_pay11 x18) x19 x20 x21⟩] := by
  unfold kernelRun0_D; dsimp only
  sl_unfold_run_names
  simp only [View.readAt_eq_ld, Memref.IsWhole.read_unread, ld_whole2]

end Cert.KernelIdeal.Hand

end
-- ==== Proof.KI.BodyD.lean ====
import proofs.«167823_g73521250173546_cont_sun_c4_545_21_alg».proof.Proof.KI.BodyDefs
import proofs.«167823_g73521250173546_cont_sun_c4_545_21_alg».proof.Proof.KI.InvStep
import proofs.«167823_g73521250173546_cont_sun_c4_545_21_alg».proof.Proof.KI.OutRead
import proofs.«167823_g73521250173546_cont_sun_c4_545_21_alg».proof.Proof.KI.RunD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem sound_D (c : Dev nD) (t : Fin cfg0.N) (hD : 25 < t.val) :
    bodyPre m c t ⊢ wp frame (wpE (defs₀ (F := F)) Variants.none c none) Set.univ (bodyAt0 t) (fun _ => bodyPost m c t) := by
  have hN : t.val < 50 := lt_of_lt_of_eq t.isLt N50
  have h1 : ¬cond1 (grid0.coords t) := fun h => by have := (hcond1 t).mp h; omega
  have h2 : ¬cond2 (grid0.coords t) := fun h => by have := (hcond2 t).mp h; omega
  have h3 : ¬cond3 (grid0.coords t) := fun h => by have := (hcond3 t).mp h; omega
  have h4 : cond4 (grid0.coords t) := (hcond4 t).mpr (by omega)
  have hL : 25 ≤ t.val := by omega
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).owesAt () t.succ = (dats m 0 c).owesAt () t.castSucc from rfl, Phi_eq, Phi_eq]
  simp only [Fin.coe_castSucc, Fin.val_succ]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29_live m c t hL, leaves0_30_live m c t hL, leaves0_31_live m c t hL]
  unfold PhiS
  iintro ⟨⟨⟨%a, %b, %e, %hInv, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  obtain ⟨ha, hb, he⟩ := hInv
  obtain rfl : a = s1val m c := ha (by omega)
  obtain rfl : e = s2val m c := he (by omega)
  obtain rfl : b = x1full m c := inv_full m c b (by rw [Nat.min_eq_right hL] at hb; exact hb)
  iapply ((kernelRun0_D (F := F) c (h1 := h1) (h2 := h2) (h3 := h3) (h4 := h4) ..).2.2.2 Set.univ _)
  iframe H0 H1 H2 H3 H4 H5 H6 H7 H8 H9 H10 H11 H12 H13 H14 H15 H16 H17 H18 H19 H20 H21 H22 H23 H24 H25 H26 H27 H28 HS0 HS1 HS2
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, ⟨%f29, H29⟩, ⟨%f30, H30⟩, ⟨%f31, H31⟩, HS0, HS1, HS2⟩
  iframe Hg Ho H0 H1 H2 H3 H4 H5 H6 H7 H8 H9 H10 H11 H12 H13 H14 H15 H16 H17 H18 H19 H20 H21 H22 H23 H24 H25 H26 H27 H28
  isplitl [HS0 HS1 HS2]
  · iexists (s1val m c), (x1full m c), (s2val m c)
    iframe HS0 HS1 HS2
    ipureintro; exact ⟨fun _ => rfl, fun _ _ => rfl, fun _ => rfl⟩
  isplitl [H29]
  · unfold owns; iexists _; iframe H29; ipureintro
    rw [kernelRun0_D_pieces29, read_writes_whole _ _ off00 _ _, x1s_ld m c t hL _]
    rfl
  isplitl [H30]
  · unfold owns; iexists _; iframe H30; ipureintro
    rw [kernelRun0_D_pieces30, read_writes_whole _ _ off00 _ _, x1s_ld m c t hL _]
    rfl
  unfold owns; iexists _; iframe H31; ipureintro
  rw [kernelRun0_D_pieces31, read_writes_cat _ _ _ _ _ _, x1s_ld m c t hL _]
  rfl

end Cert.KernelIdeal.Hand

end
-- ==== Proof.KI.Body.lean ====
import proofs.«167823_g73521250173546_cont_sun_c4_545_21_alg».proof.Proof.KI.BodyA
import proofs.«167823_g73521250173546_cont_sun_c4_545_21_alg».proof.Proof.KI.BodyB
import proofs.«167823_g73521250173546_cont_sun_c4_545_21_alg».proof.Proof.KI.BodyC
import proofs.«167823_g73521250173546_cont_sun_c4_545_21_alg».proof.Proof.KI.BodyD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The four control cases: t = 0, 0 < t < 25, t = 25, 25 < t. -/
theorem body_obligation (c : Dev nD) : BodyObligation (dats (F := F) m 0 c) (defs₀ (F := F)) Variants.none () Set.univ := fun t => by
  rw [bigSep_W0, bigSep_W0]
  by_cases hA : t.val = 0
  · exact sound_A m c t hA
  by_cases hB : t.val < 25
  · exact sound_B m c t hA hB
  by_cases hC : t.val = 25
  · exact sound_C m c t hC
  · exact sound_D m c t (by omega)

end Cert.KernelIdeal.Hand

end
-- ==== Proof.KI.Frame.lean ====
import proofs.«167823_g73521250173546_cont_sun_c4_545_21_alg».proof.Proof.KI.Body
import proofs.«167823_g73521250173546_cont_sun_c4_545_21_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At n = 0 every clause of Inv has a false premise. -/
theorem hin (c : Dev nD) : Pipeline.ΦA spec0 c ⊢ (dats m 0 c).Φ 0 := by
  rw [Phi_eq, PhiA0_eq]
  unfold PhiS
  iintro ⟨⟨⟨%d0, H0⟩, ⟨%d1, H1⟩, ⟨%d2, H2⟩⟩, Hg⟩
  iframe Hg
  iexists d0, d1, d2
  iframe H0 H1 H2
  ipureintro
  exact ⟨fun h => absurd h (by simp), fun idx h => absurd h (by simp), fun h => absurd h (by simp)⟩

theorem hout (c : Dev nD) : (dats m 0 c).Φ (Fin.last cfg0.N) ⊢ Pipeline.ΦA spec0 c := by
  rw [Phi_eq, PhiA0_eq]
  unfold PhiS
  iintro ⟨⟨%a, %b, %e, -, H0, H1, H2⟩, Hg⟩
  iframe Hg
  isplitl [H0]; · iexists _; iexact H0
  isplitl [H1]; · iexists _; iexact H1
  iexists _; iexact H2

/-- shareOf is the left half at window 0, the right half at window 1 and the full share at every other window. -/
theorem hsplit (c : Dev nD) : Pipeline.arrBufs cfg0.spec c (V m c) ⊢ (dats m 0 c).arrays ((dats m 0 c).arrAt · 0) :=
  Pipeline.arrays_split_two_of_q cfg0 c (dats m 0 c) (V m c) 0 1 (by decide) (by decide)
    (by decide) arr_whole0 rfl rfl (by dsimp only [dats, shareOf]; rfl) (by dsimp only [dats, shareOf]; rfl)
    (fun w h0 h1 _ => by
      dsimp only [dats, shareOf]
      have e0 : ¬ (w.val = 0) := fun h => h0 (Fin.ext h)
      have e1 : ¬ (w.val = 1) := fun h => h1 (Fin.ext h)
      rw [if_neg e0, if_neg e1])
    (A_eq m c)

set_option backward.isDefEq.respectTransparency.types false in
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

theorem frame : type_of% (frame_of m ρ (dats m) (A_eq m) (run_main m ρ)) :=
  frame_of m ρ (dats m) (A_eq m) (run_main m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev S10000x128 : Shape := ⟨2, ![10000, 128]⟩
abbrev S10000x10000 : Shape := ⟨2, ![10000, 10000]⟩
abbrev S10000x64 : Shape := ⟨2, ![10000, 64]⟩
abbrev S10000x192 : Shape := ⟨2, ![10000, 192]⟩
abbrev S10000x256 : Shape := ⟨2, ![10000, 256]⟩
abbrev S10000x10 : Shape := ⟨2, ![10000, 10]⟩
abbrev S10000 : Shape := ⟨1, ![10000]⟩
abbrev S128x128 : Shape := ⟨2, ![128, 128]⟩
abbrev S128x64 : Shape := ⟨2, ![128, 64]⟩
abbrev S256x192 : Shape := ⟨2, ![256, 192]⟩
abbrev S128x256 : Shape := ⟨2, ![128, 256]⟩
abbrev S10x128 : Shape := ⟨2, ![10, 128]⟩
abbrev S256 : Shape := ⟨1, ![256]⟩
abbrev S128 : Shape := ⟨1, ![128]⟩
abbrev S64 : Shape := ⟨1, ![64]⟩
abbrev S10 : Shape := ⟨1, ![10]⟩

abbrev Mat (m n : Nat) : Type := FVec Ideal ⟨2, ![m, n]⟩ .f32

abbrev Vec (n : Nat) : Type := FVec Ideal ⟨1, ![n]⟩ .f32

/-- The row and the column of a rank-2 index, as numbers below the extents. -/
abbrev r2 {m n : Nat} (j : (⟨2, ![m, n]⟩ : Shape).Idx) : Fin m := ⟨(j 0).val, idx2_lt0 j⟩

abbrev c2 {m n : Nat} (j : (⟨2, ![m, n]⟩ : Shape).Idx) : Fin n := ⟨(j 1).val, idx2_lt1 j⟩

/-- The batch normalisation's ε (about 10⁻⁵), zero, and −∞, each as its single-precision word. -/
def eps : EReal := Ideal.ofBits .f32 0x3727C5AC#32

def zero : EReal := Ideal.ofBits .f32 0x00000000#32

def negInf : EReal := Ideal.ofBits .f32 0xFF800000#32

/-- `(l · r)[i,k] = ∑ a, l[i,a] * r[a,k]`. -/
def matmul {m p n : Nat} (l : Mat m p) (r : Mat p n) : Mat m n :=
  fun j => ∑ a : Fin p, l (ix2 (r2 j) a) * r (ix2 a (c2 j))

def addRow {m n : Nat} (v : Mat m n) (b : Vec n) : Mat m n :=
  fun j => v j + b (ix1 (c2 j))

def tanhMat {m n : Nat} (v : Mat m n) : Mat m n := fun j => Ideal.tanh (v j)

/-- One graph-convolution layer: `tanh (adj · (v · W) + b)`. -/
def gconv {n p q : Nat} (adj : Mat n n) (v : Mat n p) (W : Mat p q) (b : Vec q) : Mat n q :=
  tanhMat (addRow (matmul adj (matmul v W)) b)

/-- A dense layer with the weight stored [out, in]: `(∑ k, v[i,k] * W[o,k]) + b[o]`. -/
def lin {m p q : Nat} (W : Mat q p) (b : Vec q) (v : Mat m p) : Mat m q :=
  fun j => (∑ k : Fin p, v (ix2 (r2 j) k) * W (ix2 (c2 j) k)) + b (ix1 (c2 j))

/-- Batch normalisation with running statistics: `((v - rm) / sqrt (rv + ε)) * g + b`, bracketed so. -/
def bn {m q : Nat} (g b rm rv : Vec q) (v : Mat m q) : Mat m q :=
  fun j => Ideal.div (v j - rm (ix1 (c2 j))) (Ideal.sqrt (rv (ix1 (c2 j)) + eps)) * g (ix1 (c2 j)) + b (ix1 (c2 j))

def relu {m q : Nat} (v : Mat m q) : Mat m q := fun j => max (v j) zero

/-- The fold of `max` over a row from −∞, and once more the `max` of −∞ and that fold. -/
def rowMax {m : Nat} (l : Mat m 10) (i : Fin m) : EReal :=
  max negInf ((Finset.univ : Finset (Fin 10)).fold max negInf (fun o => l (ix2 i o)))

def shifted {m : Nat} (l : Mat m 10) : Mat m 10 := fun j => l j - rowMax l (r2 j)

def rowSumExp {m : Nat} (l : Mat m 10) (i : Fin m) : EReal :=
  zero + ∑ o : Fin 10, Ideal.exp (shifted l (ix2 i o))

/-- `(l[i,o] - rowMax l i) - log (0 + ∑ o', exp (l[i,o'] - rowMax l i))`. -/
def logSoftmax {m : Nat} (l : Mat m 10) : Mat m 10 :=
  fun j => shifted l j - Ideal.log (rowSumExp l (r2 j))

/-- Two arrays side by side: `a[i,k]` for `k < p`, else `b[i,k-p]`. -/
def hcat {m p q : Nat} (a : Mat m p) (b : Mat m q) : Mat m (p + q) :=
  fun j => if h : (j 1).val < p then a (ix2 (r2 j) ⟨(j 1).val, h⟩)
    else b (ix2 (r2 j) ⟨(j 1).val - p, by have := idx2_lt1 j; omega⟩)

theorem addRow_apply {m n : Nat} (v : Mat m n) (b : Vec n) (i : Fin m) (k : Fin n) :
    addRow v b (ix2 i k) = v (ix2 i k) + b (ix1 k) := rfl
theorem gconv_apply {n p q : Nat} (adj : Mat n n) (v : Mat n p) (W : Mat p q) (b : Vec q) (i : Fin n) (k : Fin q) :
    gconv adj v W b (ix2 i k) = Ideal.tanh ((∑ a : Fin n, adj (ix2 i a) * matmul v W (ix2 a k)) + b (ix1 k)) := rfl
theorem lin_apply {m p q : Nat} (W : Mat q p) (b : Vec q) (v : Mat m p) (i : Fin m) (o : Fin q) :
    lin W b v (ix2 i o) = (∑ k : Fin p, v (ix2 i k) * W (ix2 o k)) + b (ix1 o) := rfl
theorem bn_apply {m q : Nat} (g b rm rv : Vec q) (v : Mat m q) (i : Fin m) (o : Fin q) :
    bn g b rm rv v (ix2 i o)
      = Ideal.div (v (ix2 i o) - rm (ix1 o)) (Ideal.sqrt (rv (ix1 o) + eps)) * g (ix1 o) + b (ix1 o) := rfl
theorem relu_apply {m q : Nat} (v : Mat m q) (j : (⟨2, ![m, q]⟩ : Shape).Idx) : relu v j = max (v j) zero := rfl
theorem shifted_apply {m : Nat} (l : Mat m 10) (i : Fin m) (o : Fin 10) :
    shifted l (ix2 i o) = l (ix2 i o) - rowMax l i := rfl
theorem logSoftmax_apply {m : Nat} (l : Mat m 10) (i : Fin m) (o : Fin 10) :
    logSoftmax l (ix2 i o) = (l (ix2 i o) - rowMax l i) - Ideal.log (rowSumExp l i) := rfl
theorem hcat_apply_left {m p q : Nat} (a : Mat m p) (b : Mat m q) (i : Fin m) (k : Fin (p + q)) (h : k.val < p) :
    hcat a b (ix2 i k) = a (ix2 i ⟨k.val, h⟩) := dif_pos h
theorem hcat_apply_right {m p q : Nat} (a : Mat m p) (b : Mat m q) (i : Fin m) (k : Fin (p + q)) (h : ¬ k.val < p) :
    hcat a b (ix2 i k) = b (ix2 i ⟨k.val - p, by have := k.isLt; omega⟩) := dif_neg h

def sup1 (x : Mat 10000 128) (gc1_W : Mat 128 128) : Mat 10000 128 := matmul x gc1_W

def x1 (x : Mat 10000 128) (adj : Mat 10000 10000) (gc1_W : Mat 128 128) (gc1_b : Vec 128) : Mat 10000 128 :=
  gconv adj x gc1_W gc1_b

def sup2 (x : Mat 10000 128) (adj : Mat 10000 10000) (gc1_W : Mat 128 128) (gc1_b : Vec 128) (gc2_W : Mat 128 64) :
    Mat 10000 64 :=
  matmul (x1 x adj gc1_W gc1_b) gc2_W

def x2 (x : Mat 10000 128) (adj : Mat 10000 10000) (gc1_W : Mat 128 128) (gc1_b : Vec 128) (gc2_W : Mat 128 64)
    (gc2_b : Vec 64) : Mat 10000 64 :=
  gconv adj (x1 x adj gc1_W gc1_b) gc2_W gc2_b

def zcat (x : Mat 10000 128) (adj : Mat 10000 10000) (gc1_W : Mat 128 128) (gc1_b : Vec 128) (gc2_W : Mat 128 64)
    (gc2_b : Vec 64) : Mat 10000 192 :=
  hcat (x1 x adj gc1_W gc1_b) (x2 x adj gc1_W gc1_b gc2_W gc2_b)

def xc3Of (z : Mat 10000 192) (affc1_W : Mat 256 192) (affc1_b bn1_g bn1_b bn1_rm bn1_rv : Vec 256) : Mat 10000 256 :=
  relu (bn bn1_g bn1_b bn1_rm bn1_rv (lin affc1_W affc1_b z))

def xc4Of (c3 : Mat 10000 256) (affc2_W : Mat 128 256) (affc2_b bn2_g bn2_b bn2_rm bn2_rv : Vec 128) : Mat 10000 128 :=
  relu (bn bn2_g bn2_b bn2_rm bn2_rv (lin affc2_W affc2_b c3))

def logitsOf (c4 : Mat 10000 128) (affc3_W : Mat 10 128) (affc3_b : Vec 10) : Mat 10000 10 := lin affc3_W affc3_b c4

def xr3Of (z : Mat 10000 192) (affr1_W : Mat 256 192) (affr1_b : Vec 256) : Mat 10000 256 := relu (lin affr1_W affr1_b z)

def xr4Of (r3 : Mat 10000 256) (affr2_W : Mat 128 256) (affr2_b : Vec 128) : Mat 10000 128 := relu (lin affr2_W affr2_b r3)

def xr5Of (r4 : Mat 10000 128) (affr3_W : Mat 128 128) (affr3_b : Vec 128) : Mat 10000 128 := lin affr3_W affr3_b r4

def xc3 (x : Mat 10000 128) (adj : Mat 10000 10000) (gc1_W : Mat 128 128) (gc1_b : Vec 128) (gc2_W : Mat 128 64)
    (gc2_b : Vec 64) (affc1_W : Mat 256 192) (affc1_b bn1_g bn1_b bn1_rm bn1_rv : Vec 256) : Mat 10000 256 :=
  xc3Of (zcat x adj gc1_W gc1_b gc2_W gc2_b) affc1_W affc1_b bn1_g bn1_b bn1_rm bn1_rv

def xc4 (x : Mat 10000 128) (adj : Mat 10000 10000) (gc1_W : Mat 128 128) (gc1_b : Vec 128) (gc2_W : Mat 128 64)
    (gc2_b : Vec 64) (affc1_W : Mat 256 192) (affc1_b bn1_g bn1_b bn1_rm bn1_rv : Vec 256)
    (affc2_W : Mat 128 256) (affc2_b bn2_g bn2_b bn2_rm bn2_rv : Vec 128) : Mat 10000 128 :=
  xc4Of (xc3 x adj gc1_W gc1_b gc2_W gc2_b affc1_W affc1_b bn1_g bn1_b bn1_rm bn1_rv)
    affc2_W affc2_b bn2_g bn2_b bn2_rm bn2_rv

def logits (x : Mat 10000 128) (adj : Mat 10000 10000) (gc1_W : Mat 128 128) (gc1_b : Vec 128) (gc2_W : Mat 128 64)
    (gc2_b : Vec 64) (affc1_W : Mat 256 192) (affc1_b bn1_g bn1_b bn1_rm bn1_rv : Vec 256)
    (affc2_W : Mat 128 256) (affc2_b bn2_g bn2_b bn2_rm bn2_rv : Vec 128) (affc3_W : Mat 10 128) (affc3_b : Vec 10) :
    Mat 10000 10 :=
  logitsOf (xc4 x adj gc1_W gc1_b gc2_W gc2_b affc1_W affc1_b bn1_g bn1_b bn1_rm bn1_rv
    affc2_W affc2_b bn2_g bn2_b bn2_rm bn2_rv) affc3_W affc3_b

def xr3 (x : Mat 10000 128) (adj : Mat 10000 10000) (gc1_W : Mat 128 128) (gc1_b : Vec 128) (gc2_W : Mat 128 64)
    (gc2_b : Vec 64) (affr1_W : Mat 256 192) (affr1_b : Vec 256) : Mat 10000 256 :=
  xr3Of (zcat x adj gc1_W gc1_b gc2_W gc2_b) affr1_W affr1_b

def xr4 (x : Mat 10000 128) (adj : Mat 10000 10000) (gc1_W : Mat 128 128) (gc1_b : Vec 128) (gc2_W : Mat 128 64)
    (gc2_b : Vec 64) (affr1_W : Mat 256 192) (affr1_b : Vec 256) (affr2_W : Mat 128 256) (affr2_b : Vec 128) :
    Mat 10000 128 :=
  xr4Of (xr3 x adj gc1_W gc1_b gc2_W gc2_b affr1_W affr1_b) affr2_W affr2_b

/-- The first result: the log-softmax of the classification head. -/
def xc5 (x : Mat 10000 128) (adj : Mat 10000 10000) (gc1_W : Mat 128 128) (gc1_b : Vec 128) (gc2_W : Mat 128 64)
    (gc2_b : Vec 64) (affc1_W : Mat 256 192) (affc1_b bn1_g bn1_b bn1_rm bn1_rv : Vec 256)
    (affc2_W : Mat 128 256) (affc2_b bn2_g bn2_b bn2_rm bn2_rv : Vec 128) (affc3_W : Mat 10 128) (affc3_b : Vec 10)
    (_affr1_W : Mat 256 192) (_affr1_b : Vec 256) (_affr2_W : Mat 128 256) (_affr2_b : Vec 128)
    (_affr3_W : Mat 128 128) (_affr3_b : Vec 128) : Mat 10000 10 :=
  logSoftmax (logits x adj gc1_W gc1_b gc2_W gc2_b affc1_W affc1_b bn1_g bn1_b bn1_rm bn1_rv
    affc2_W affc2_b bn2_g bn2_b bn2_rm bn2_rv affc3_W affc3_b)

/-- The second result: the reconstruction head. -/
def xr5 (x : Mat 10000 128) (adj : Mat 10000 10000) (gc1_W : Mat 128 128) (gc1_b : Vec 128) (gc2_W : Mat 128 64)
    (gc2_b : Vec 64) (_affc1_W : Mat 256 192) (_affc1_b _bn1_g _bn1_b _bn1_rm _bn1_rv : Vec 256)
    (_affc2_W : Mat 128 256) (_affc2_b _bn2_g _bn2_b _bn2_rm _bn2_rv : Vec 128) (_affc3_W : Mat 10 128) (_affc3_b : Vec 10)
    (affr1_W : Mat 256 192) (affr1_b : Vec 256) (affr2_W : Mat 128 256) (affr2_b : Vec 128)
    (affr3_W : Mat 128 128) (affr3_b : Vec 128) : Mat 10000 128 :=
  xr5Of (xr4 x adj gc1_W gc1_b gc2_W gc2_b affr1_W affr1_b affr2_W affr2_b) affr3_W affr3_b

/-- The third result: the two layers' outputs side by side. -/
def zn (x : Mat 10000 128) (adj : Mat 10000 10000) (gc1_W : Mat 128 128) (gc1_b : Vec 128) (gc2_W : Mat 128 64)
    (gc2_b : Vec 64) (_affc1_W : Mat 256 192) (_affc1_b _bn1_g _bn1_b _bn1_rm _bn1_rv : Vec 256)
    (_affc2_W : Mat 128 256) (_affc2_b _bn2_g _bn2_b _bn2_rm _bn2_rv : Vec 128) (_affc3_W : Mat 10 128) (_affc3_b : Vec 10)
    (_affr1_W : Mat 256 192) (_affr1_b : Vec 256) (_affr2_W : Mat 128 256) (_affr2_b : Vec 128)
    (_affr3_W : Mat 128 128) (_affr3_b : Vec 128) : Mat 10000 192 :=
  zcat x adj gc1_W gc1_b gc2_W gc2_b

end Cert.Spec

end
-- ==== Proof.KI.SpecRows.lean ====
import proofs.«167823_g73521250173546_cont_sun_c4_545_21_alg».proof.Proof.Spec

noncomputable section

open scoped BigOperators

namespace Cert.Spec

open Idealize.ShloMosaic Idealize.ShloMosaic.ValueIdx

variable {m M : Nat} (ρ : Fin m → Fin M)

/-- A dense layer's row r is a sum over row r of its input alone. -/
theorem lin_rows {p q : Nat} (W : Mat q p) (b : Vec q) (Z : Mat M p) (zt : Mat m p)
    (h : ∀ (r : Fin m) (k : Fin p), zt (ix2 r k) = Z (ix2 (ρ r) k)) (r : Fin m) (o : Fin q) :
    lin W b zt (ix2 r o) = lin W b Z (ix2 (ρ r) o) := by
  rw [lin_apply, lin_apply]
  congr 1
  exact Finset.sum_congr rfl fun k _ => by rw [h]

theorem bn_rows {q : Nat} (g b rm rv : Vec q) (Z : Mat M q) (zt : Mat m q)
    (h : ∀ (r : Fin m) (k : Fin q), zt (ix2 r k) = Z (ix2 (ρ r) k)) (r : Fin m) (o : Fin q) :
    bn g b rm rv zt (ix2 r o) = bn g b rm rv Z (ix2 (ρ r) o) := by
  rw [bn_apply, bn_apply, h]

theorem relu_rows {q : Nat} (Z : Mat M q) (zt : Mat m q)
    (h : ∀ (r : Fin m) (k : Fin q), zt (ix2 r k) = Z (ix2 (ρ r) k)) (r : Fin m) (o : Fin q) :
    relu zt (ix2 r o) = relu Z (ix2 (ρ r) o) := by
  rw [relu_apply, relu_apply, h]

theorem hcat_rows {p q : Nat} (A : Mat M p) (B : Mat M q) (at' : Mat m p) (bt : Mat m q)
    (ha : ∀ (r : Fin m) (k : Fin p), at' (ix2 r k) = A (ix2 (ρ r) k))
    (hb : ∀ (r : Fin m) (k : Fin q), bt (ix2 r k) = B (ix2 (ρ r) k)) (r : Fin m) (k : Fin (p + q)) :
    hcat at' bt (ix2 r k) = hcat A B (ix2 (ρ r) k) := by
  by_cases hk : k.val < p
  · rw [hcat_apply_left _ _ _ _ hk, hcat_apply_left _ _ _ _ hk, ha]
  · rw [hcat_apply_right _ _ _ _ hk, hcat_apply_right _ _ _ _ hk, hb]

theorem rowMax_rows (L : Mat M 10) (lt : Mat m 10)
    (h : ∀ (r : Fin m) (k : Fin 10), lt (ix2 r k) = L (ix2 (ρ r) k)) (r : Fin m) :
    rowMax lt r = rowMax L (ρ r) := by
  unfold rowMax
  congr 2
  funext o
  exact h r o

theorem shifted_rows (L : Mat M 10) (lt : Mat m 10)
    (h : ∀ (r : Fin m) (k : Fin 10), lt (ix2 r k) = L (ix2 (ρ r) k)) (r : Fin m) (o : Fin 10) :
    shifted lt (ix2 r o) = shifted L (ix2 (ρ r) o) := by
  rw [shifted_apply, shifted_apply, h, rowMax_rows ρ L lt h]

theorem rowSumExp_rows (L : Mat M 10) (lt : Mat m 10)
    (h : ∀ (r : Fin m) (k : Fin 10), lt (ix2 r k) = L (ix2 (ρ r) k)) (r : Fin m) :
    rowSumExp lt r = rowSumExp L (ρ r) := by
  unfold rowSumExp
  congr 1
  exact Finset.sum_congr rfl fun o _ => by rw [shifted_rows ρ L lt h]

/-- Row r of the log-softmax is a function of row r of the logits alone. -/
theorem logSoftmax_rows (L : Mat M 10) (lt : Mat m 10)
    (h : ∀ (r : Fin m) (k : Fin 10), lt (ix2 r k) = L (ix2 (ρ r) k)) (r : Fin m) (o : Fin 10) :
    logSoftmax lt (ix2 r o) = logSoftmax L (ix2 (ρ r) o) := by
  rw [logSoftmax_apply, logSoftmax_apply, h, rowMax_rows ρ L lt h, rowSumExp_rows ρ L lt h]

end Cert.Spec

end
-- ==== Proof.KI.Weights.lean ====
import proofs.«167823_g73521250173546_cont_sun_c4_545_21_alg».proof.Proof.KI.Tables
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

variable (m : (ℓ : Loc nD τ sig) → Buf (Elt Ideal) ℓ) (c : Dev nD) (t : Fin cfg0.N)

abbrev arg (b : Ref sig .tc) : Buf (Elt Ideal) ((c : Thread nD τ).loc b) := m ((c : Thread nD τ).loc b)

theorem idx_adj : ∀ t : Fin cfg0.N, win0_0.index t (0 : Fin 2) = 2 * (t.val % 25) ∧ win0_0.index t (1 : Fin 2) = 0
    ∧ win0_1.index t (0 : Fin 2) = 2 * (t.val % 25) + 1 ∧ win0_1.index t (1 : Fin 2) = 0 :=
  (by decide +kernel : ∀ t : Fin grid0.N, _)

theorem idx_whole : ∀ t : Fin cfg0.N, ∀ w : Fin 32, 2 ≤ w.val ∧ w.val < 29 → ∀ a, (cfg0.win w).index t a = 0 :=
  (by decide +kernel : ∀ t : Fin grid0.N, _)

theorem blk0_0_apply (r : Fin 200) (a : Fin 10000) :
    blk0_0 m c t (ix2 r a)
      = arg m c main_arg1 (ix2 ⟨400 * (t.val % 25) + r.val, by have := r.isLt; omega⟩ a) := by
  obtain ⟨e0, e1, -, -⟩ := idx_adj t
  refine (congrArg (V m c main_arg1) (funext fun d => Fin.ext ?_)).trans (congrFun (V_main_arg1 m c) _)
  match d with
  | ⟨0, _⟩ => show win0_0.index t (0 : Fin 2) * 200 + 1 * r.val = 400 * (t.val % 25) + r.val; omega
  | ⟨1, _⟩ => show win0_0.index t (1 : Fin 2) * 10000 + 1 * a.val = a.val; omega

theorem blk0_1_apply (r : Fin 200) (a : Fin 10000) :
    blk0_1 m c t (ix2 r a)
      = arg m c main_arg1 (ix2 ⟨400 * (t.val % 25) + 200 + r.val, by have := r.isLt; omega⟩ a) := by
  obtain ⟨-, -, e0, e1⟩ := idx_adj t
  refine (congrArg (V m c main_arg1) (funext fun d => Fin.ext ?_)).trans (congrFun (V_main_arg1 m c) _)
  match d with
  | ⟨0, _⟩ => show win0_1.index t (0 : Fin 2) * 200 + 1 * r.val = 400 * (t.val % 25) + 200 + r.val; omega
  | ⟨1, _⟩ => show win0_1.index t (1 : Fin 2) * 10000 + 1 * a.val = a.val; omega

/-- Coordinate by coordinate, 0 * n + 1 * x = x. -/
theorem at_zero {s : Shape} {α : Type} (f : s.Idx → α) {e : s.Idx} (j : s.Idx) {i : Fin s.rank → Nat}
    (hi : ∀ a, i a = 0) (he : ∀ a, (e a).val = i a * s.size a + 1 * (j a).val) : f e = f j :=
  congrArg f (funext fun a => Fin.ext (by rw [he, hi, Nat.zero_mul, Nat.zero_add, Nat.one_mul]))

/-- Entry (0, k) of a vector laid out as one row is its entry k. -/
theorem row_apply {K : Nat} {α : Type} (f : (⟨2, ![1, K]⟩ : Shape).Idx → α) {v : (⟨1, ![K]⟩ : Shape).Idx → α}
    {e : (⟨2, ![1, K]⟩ : Shape).Idx} (k : Fin K) {h} {i : Fin 2 → Nat}
    (hf : f = broadcastInDim ⟨2, ![1, K]⟩ ![1] h v) (hi : ∀ a, i a = 0)
    (he : ∀ a, (e a).val = i a * (⟨2, ![1, K]⟩ : Shape).size a + 1 * (ix2 (0 : Fin 1) k a).val) : f e = v (ix1 k) := by
  rw [at_zero f _ hi he, hf]
  exact broadcastInDim_apply _ _ _ _ _ fun a => match a with
    | ⟨0, _⟩ => by have := k.isLt; show k.val = if K = 1 then 0 else k.val; split <;> omega

/-- Entry (k, o) of a transposed matrix is its entry (o, k). -/
theorem tr_apply {p q : Nat} {α : Type} (f : (⟨2, ![p, q]⟩ : Shape).Idx → α) {W : (⟨2, ![q, p]⟩ : Shape).Idx → α}
    {e : (⟨2, ![p, q]⟩ : Shape).Idx} (k : Fin p) (o : Fin q) {h} {i : Fin 2 → Nat}
    (hf : f = transpose ⟨2, ![p, q]⟩ [1, 0] W h) (hi : ∀ a, i a = 0)
    (he : ∀ a, (e a).val = i a * (⟨2, ![p, q]⟩ : Shape).size a + 1 * (ix2 k o a).val) : f e = W (ix2 o k) := by
  rw [at_zero f _ hi he, hf]
  exact transpose_apply _ _ _ _ _ fun b => match b with | ⟨0, _⟩ => rfl | ⟨1, _⟩ => rfl

/-- Entry (k, o) of rows `off ..` of a transposed matrix is its entry (o, off + k). -/
theorem trslice_apply {p q n : Nat} {α : Type} (off : Nat) (f : (⟨2, ![p, q]⟩ : Shape).Idx → α)
    {W : (⟨2, ![q, n]⟩ : Shape).Idx → α} {e : (⟨2, ![p, q]⟩ : Shape).Idx} (k : Fin p) (o : Fin q) (k' : Fin n) {h h'}
    {i : Fin 2 → Nat} (hk : k'.val = off + k.val)
    (hf : f = extractStridedSlice ⟨2, ![p, q]⟩ ![off, 0] (transpose ⟨2, ![n, q]⟩ [1, 0] W h) h') (hi : ∀ a, i a = 0)
    (he : ∀ a, (e a).val = i a * (⟨2, ![p, q]⟩ : Shape).size a + 1 * (ix2 k o a).val) : f e = W (ix2 o k') := by
  rw [at_zero f _ hi he, hf]
  refine (extractStridedSlice_apply _ _ _ _ (ix2 k' o) fun a => ?_).trans
    (transpose_apply _ _ _ _ _ fun b => match b with | ⟨0, _⟩ => rfl | ⟨1, _⟩ => rfl)
  match a with
  | ⟨0, _⟩ => exact hk
  | ⟨1, _⟩ => exact (Nat.zero_add _).symm

theorem blk0_2_eq : blk0_2 m c t = arg m c main_arg0 :=
  funext fun j => (at_zero (V m c main_arg0) j (idx_whole t 2 (by decide)) fun _ => rfl).trans (congrFun (V_main_arg0 m c) j)
theorem blk0_3_eq : blk0_3 m c t = arg m c main_arg2 :=
  funext fun j => (at_zero (V m c main_arg2) j (idx_whole t 3 (by decide)) fun _ => rfl).trans (congrFun (V_main_arg2 m c) j)
theorem blk0_5_eq : blk0_5 m c t = arg m c main_arg4 :=
  funext fun j => (at_zero (V m c main_arg4) j (idx_whole t 5 (by decide)) fun _ => rfl).trans (congrFun (V_main_arg4 m c) j)

end Cert.KernelIdeal.Val
-- ==== Proof.KI.ValAt.lean ====
import proofs.«167823_g73521250173546_cont_sun_c4_545_21_alg».proof.Proof.KI.Data
import proofs.«167823_g73521250173546_cont_sun_c4_545_21_alg».proof.Proof.KI.SpecRows
import proofs.«167823_g73521250173546_cont_sun_c4_545_21_alg».proof.Proof.KI.Weights

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe

section Tile

variable {X : Spec.Mat 10000 128} {A : Spec.Mat 10000 10000} {W1 : Spec.Mat 128 128} {B1 : Spec.Vec 128}
  {W2 : Spec.Mat 128 64} {B2 : Spec.Vec 64}
  {C1 : Spec.Mat 256 192} {C1b g1 b1 rm1 rv1 : Spec.Vec 256} {C2 : Spec.Mat 128 256} {C2b g2 b2 rm2 rv2 : Spec.Vec 128}
  {C3 : Spec.Mat 10 128} {C3b : Spec.Vec 10}
  {F1 : Spec.Mat 256 192} {F1b : Spec.Vec 256} {F2 : Spec.Mat 128 256} {F2b : Spec.Vec 128}
  {F3 : Spec.Mat 128 128} {F3b : Spec.Vec 128}
  (ρ : Fin 400 → Fin 10000) {x1t : Spec.Mat 400 128} {x2t : Spec.Mat 400 64}
  (h1 : ∀ (r : Fin 400) (k : Fin 128), x1t (ix2 r k) = Spec.x1 X A W1 B1 (ix2 (ρ r) k))
  (h2 : ∀ (r : Fin 400) (k : Fin 64), x2t (ix2 r k) = Spec.x2 X A W1 B1 W2 B2 (ix2 (ρ r) k))

include h1 h2

theorem zcat_tile (r : Fin 400) (k : Fin 192) :
    (Spec.hcat x1t x2t : Spec.Mat 400 192) (ix2 r k) = Spec.zcat X A W1 B1 W2 B2 (ix2 (ρ r) k) :=
  Spec.hcat_rows ρ (Spec.x1 X A W1 B1) (Spec.x2 X A W1 B1 W2 B2) x1t x2t h1 h2 r k

theorem zn_tile (r : Fin 400) (k : Fin 192) :
    (Spec.hcat x1t x2t : Spec.Mat 400 192) (ix2 r k)
      = Spec.zn X A W1 B1 W2 B2 C1 C1b g1 b1 rm1 rv1 C2 C2b g2 b2 rm2 rv2 C3 C3b F1 F1b F2 F2b F3 F3b (ix2 (ρ r) k) :=
  zcat_tile ρ h1 h2 r k

/-- Every layer of the head acts on each row alone. -/
theorem xr5_tile (r : Fin 400) (o : Fin 128) :
    Spec.lin F3 F3b (Spec.relu (Spec.lin F2 F2b (Spec.relu (Spec.lin F1 F1b (Spec.hcat x1t x2t : Spec.Mat 400 192)))))
        (ix2 r o)
      = Spec.xr5 X A W1 B1 W2 B2 C1 C1b g1 b1 rm1 rv1 C2 C2b g2 b2 rm2 rv2 C3 C3b F1 F1b F2 F2b F3 F3b (ix2 (ρ r) o) := by
  unfold Spec.xr5 Spec.xr5Of Spec.xr4 Spec.xr4Of Spec.xr3 Spec.xr3Of
  exact Spec.lin_rows ρ F3 F3b _ _ (fun r k =>
    Spec.relu_rows ρ _ _ (fun r k =>
    Spec.lin_rows ρ F2 F2b _ _ (fun r k =>
    Spec.relu_rows ρ _ _ (fun r k =>
    Spec.lin_rows ρ F1 F1b _ _ (zcat_tile ρ h1 h2) r k) r k) r k) r k) r o

/-- Every layer of the head acts on each row alone. -/
theorem xc5_tile (r : Fin 400) (o : Fin 10) :
    Spec.logSoftmax (Spec.lin C3 C3b (Spec.relu (Spec.bn g2 b2 rm2 rv2 (Spec.lin C2 C2b
        (Spec.relu (Spec.bn g1 b1 rm1 rv1 (Spec.lin C1 C1b (Spec.hcat x1t x2t : Spec.Mat 400 192)))))))) (ix2 r o)
      = Spec.xc5 X A W1 B1 W2 B2 C1 C1b g1 b1 rm1 rv1 C2 C2b g2 b2 rm2 rv2 C3 C3b F1 F1b F2 F2b F3 F3b (ix2 (ρ r) o) := by
  unfold Spec.xc5 Spec.logits Spec.logitsOf Spec.xc4 Spec.xc4Of Spec.xc3 Spec.xc3Of
  exact Spec.logSoftmax_rows ρ _ _ (fun r k =>
    Spec.lin_rows ρ C3 C3b _ _ (fun r k =>
    Spec.relu_rows ρ _ _ (fun r k =>
    Spec.bn_rows ρ g2 b2 rm2 rv2 _ _ (fun r k =>
    Spec.lin_rows ρ C2 C2b _ _ (fun r k =>
    Spec.relu_rows ρ _ _ (fun r k =>
    Spec.bn_rows ρ g1 b1 rm1 rv1 _ _ (fun r k =>
    Spec.lin_rows ρ C1 C1b _ _ (zcat_tile ρ h1 h2) r k) r k) r k) r k) r k) r k) r k) r o

end Tile

variable (m : (ℓ : Loc nD τ sig) → Buf (Elt Ideal) ℓ) (c : Dev nD)

abbrev specXc5 : Spec.Mat 10000 10 := Spec.xc5 (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25)
abbrev specXr5 : Spec.Mat 10000 128 := Spec.xr5 (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25)
abbrev specZn : Spec.Mat 10000 192 := Spec.zn (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25)

end Cert.KernelIdeal.Val

end
-- ==== Proof.KI.ValMatmul.lean ====
import proofs.«167823_g73521250173546_cont_sun_c4_545_21_alg».proof.Proof.Gen.KernelIdeal.Skeleton
import proofs.«167823_g73521250173546_cont_sun_c4_545_21_alg».proof.Proof.Spec
import Idealize.ShloMosaic.PureOps.Ideal.Laws
import Idealize.ShloMosaic.Lib.ValueIdx
import Mathlib.Algebra.BigOperators.Fin

noncomputable section

open scoped BigOperators

namespace Cert.KernelIdeal.Val

open Cert.KernelIdeal Cert.KernelIdeal.Gen Idealize.ShloMosaic Idealize.ShloMosaic.ValueIdx

/-- The one contracted coordinate is the left factor's column and the right factor's row. -/
theorem matmul_plain_apply {m K n : Nat} {φ₁ φ₂ : FTy} (D : DotDims ⟨2, ![m, K]⟩ ⟨2, ![K, n]⟩ ⟨2, ![m, n]⟩)
    (hD : D = DotDims.plain m K n) (l : FVec Ideal ⟨2, ![m, K]⟩ φ₁) (r : FVec Ideal ⟨2, ![K, n]⟩ φ₂) (i : Fin m) (o : Fin n) :
    matmul D none l r (constant (F := Ideal) ⟨2, ![m, n]⟩ .f32 0x00000000#32) (ix2 i o)
      = ∑ k : Fin K, l (ix2 i k) * r (ix2 k o) := by
  subst hD
  simp only [matmul]
  rw [Ideal.matmul_constant_zero_apply, ← Equiv.sum_comp (contrEquiv1 _ K rfl rfl).symm]
  refine Finset.sum_congr rfl fun k _ => ?_
  have hk := contrEquiv1_symm_val (DotDims.plain m K n) K rfl rfl k
  congr 2 <;> funext a <;> refine Fin.ext ?_ <;> match a with
    | ⟨0, _⟩ => first | rfl | exact hk
    | ⟨1, _⟩ => first | rfl | exact hk

/-- A sum over `p + q` columns is the sum over the first `p` plus the sum over the last `q`. -/
theorem sum_hcat_split {m p q n : Nat} (x₁ : Cert.Spec.Mat m p) (x₂ : Cert.Spec.Mat m q) (W : Cert.Spec.Mat n (p + q))
    (Wa : Cert.Spec.Mat p n) (Wb : Cert.Spec.Mat q n)
    (hWa : ∀ (k : Fin p) (o : Fin n), Wa (ix2 k o) = W (ix2 o ⟨k.val, by omega⟩))
    (hWb : ∀ (k : Fin q) (o : Fin n), Wb (ix2 k o) = W (ix2 o ⟨p + k.val, by omega⟩)) (r : Fin m) (o : Fin n) :
    (∑ k : Fin p, x₁ (ix2 r k) * Wa (ix2 k o)) + (∑ k : Fin q, x₂ (ix2 r k) * Wb (ix2 k o))
      = ∑ k : Fin (p + q), Cert.Spec.hcat x₁ x₂ (ix2 r k) * W (ix2 o k) := by
  rw [Fin.sum_univ_add]
  congr 1 <;> refine Finset.sum_congr rfl fun k _ => ?_
  · rw [Cert.Spec.hcat_apply_left x₁ x₂ r (Fin.castAdd q k) k.isLt, hWa]
    rfl
  · rw [Cert.Spec.hcat_apply_right x₁ x₂ r (Fin.natAdd p k) (Nat.not_lt.2 (Nat.le_add_right p k)), hWb]
    congr 3
    exact Fin.ext (Nat.add_sub_cancel_left p k).symm

end Cert.KernelIdeal.Val

end
-- ==== Proof.KI.ValClass.lean ====
import proofs.«167823_g73521250173546_cont_sun_c4_545_21_alg».proof.Proof.Gen.KernelIdeal.Skeleton
import proofs.«167823_g73521250173546_cont_sun_c4_545_21_alg».proof.Proof.Spec
import proofs.«167823_g73521250173546_cont_sun_c4_545_21_alg».proof.Proof.KI.ValMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen Idealize.ShloMosaic Idealize.ShloMosaic.ValueIdx

namespace Cls

/-- Position `i * 1 + u` of `[a, 1]` in row-major order is position `i` of `[a]`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

/-- A broadcast keeps the coordinate of an axis whose extent is not 1 and reads 0 on one whose extent is 1. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · omega
    · rfl
  | ⟨1, _⟩ => rfl

abbrev IsRow {n : Nat} (row : Spec.Mat 1 n) (v : Spec.Vec n) : Prop :=
  ∀ o : Fin n, row (ix2 (0 : Fin 1) o) = v (ix1 o)

abbrev IsTr {p q : Nat} (Wt : Spec.Mat p q) (W : Spec.Mat q p) : Prop :=
  ∀ (k : Fin p) (o : Fin q), Wt (ix2 k o) = W (ix2 o k)

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

end Cls

open Cls

/-- Inserting column `k` into the row index `r` gives `(r, k)`. -/
theorem lift_400x10 (r : Fin 400) (k : Fin 10) : reduces_S400x10_S400.lift (ix1 r) k = ix2 r k :=
  funext fun c => Fin.ext (by match c with | ⟨0, _⟩ => rfl | ⟨1, _⟩ => rfl)

/-- A fold of `max` from `b` is at least `b`, so one more `max` with `b` changes nothing. -/
theorem rowMaxK_apply (L : Spec.Mat 400 10) (hφ : FKind.Formats .f32)
    (hm : (0xFF800000#32 : BitVec 32) = 0xFF800000#32) (r : Fin 400) :
    multiReduction (F := Ideal) .maximumf [1] S400 L 0xFF800000#32 reduces_S400x10_S400 hφ hm (ix1 r) = Spec.rowMax L r :=
  (Ideal.multiReduction_maximumf_single L _ reduces_S400x10_S400 hφ hm (ix1 r)).trans (by
    rw [Spec.rowMax, max_eq_right ((Finset.le_fold_max _).mpr (Or.inl le_rfl))]
    exact congrArg (Finset.univ.fold max Spec.negInf) (funext fun k => congrArg L (lift_400x10 r k)))

/-- The zero word is the real number zero. -/
theorem rowSumK_apply (E : Spec.Mat 400 10) (hφ : FKind.Formats .f32)
    (ha : (0x00000000#32 : BitVec 32) = 0x00000000#32) (r : Fin 400) :
    multiReduction (F := Ideal) .add [1] S400 E 0x00000000#32 reduces_S400x10_S400 hφ ha (ix1 r)
      = Spec.zero + ∑ o : Fin 10, E (ix2 r o) :=
  (Ideal.multiReduction_add_single E _ reduces_S400x10_S400 hφ ha (ix1 r)).trans (by
    rw [Spec.zero, Ideal.ofBits_zero_f32, zero_add]
    exact Finset.sum_congr rfl fun k _ => congrArg E (lift_400x10 r k))

/-- A row's maximum and sum of exponentials, kept as columns and broadcast back, give the specification's log-softmax. -/
theorem softmax_eq (L : Spec.Mat 400 10) :
    (have m : FVec Ideal S400x10 .f32 := broadcastTo S400x10 (shapeCast S400x1
        (multiReduction .maximumf [1] S400 L 0xFF800000#32 reduces_S400x10_S400 (.inl rfl) rfl) shapeCasts_S400_S400x1)
        broadcasts_S400x1_S400x10;
      subf (subf L m) (broadcastTo S400x10 (log (shapeCast S400x1
        (multiReduction .add [1] S400 (exp (subf L m)) 0x00000000#32 reduces_S400x10_S400 (.inl rfl) rfl)
        shapeCasts_S400_S400x1)) broadcasts_S400x1_S400x10))
      = Spec.logSoftmax L := by
  funext j
  obtain ⟨r, o, rfl⟩ : ∃ (r : Fin 400) (o : Fin 10), j = ix2 r o := ⟨j 0, j 1, eq_ix2 j⟩
  simp only [subf_apply, log_apply, exp_apply, broadcastTo_a1_ab_apply, shapeCast_a_a1_apply,
    rowMaxK_apply _ (.inl rfl) rfl, rowSumK_apply _ (.inl rfl) rfl]
  rfl

/-- The first dense layer's two products are one sum over the 192 columns of the two tiles side by side. -/
theorem pay6_addRow_eq (x1t : Spec.Mat 400 128) (aA : FVec Ideal S200x10000 .f32) (s : FVec Ideal S10000x64 .bf16)
    (aB : FVec Ideal S200x10000 .f32) (s' : FVec Ideal S10000x64 .bf16) (b2 : FVec Ideal S1x64 .f32)
    (Wa : Spec.Mat 128 256) (Wb : Spec.Mat 64 256) (W1 : Spec.Mat 256 192) (C1B : Spec.Vec 256)
    (hWa : ∀ (k : Fin 128) (o : Fin 256), Wa (ix2 k o) = W1 (ix2 o ⟨k.val, by omega⟩))
    (hWb : ∀ (k : Fin 64) (o : Fin 256), Wb (ix2 k o) = W1 (ix2 o ⟨128 + k.val, by omega⟩)) :
    Spec.addRow (k0_pay6 (F := Ideal) x1t aA s aB s' b2 Wa Wb) C1B
      = Spec.lin W1 C1B (Spec.hcat x1t (k0_pay5 (F := Ideal) aA s aB s' b2) : Spec.Mat 400 192) := by
  funext j
  obtain ⟨r, o, rfl⟩ : ∃ (r : Fin 400) (o : Fin 256), j = ix2 r o := ⟨j 0, j 1, eq_ix2 j⟩
  rw [Spec.addRow_apply, Spec.lin_apply]
  refine congrArg (· + C1B (ix1 o))
    (Eq.trans ?_ (sum_hcat_split x1t (k0_pay5 (F := Ideal) aA s aB s' b2) W1 Wa Wb hWa hWb r o))
  unfold k0_pay6
  simp only [shapeCast_self, addf_apply, truncf_apply,
    matmul_plain_apply dot_S400x128_S128x256_S400x256_1_0_0_1_n_n rfl,
    matmul_plain_apply dot_S400x64_S64x256_S400x256_1_0_0_1_n_n rfl]

/-- Bias, batch normalisation, rectifier and the second dense layer, element by element. -/
theorem pay8_eq (h : Spec.Mat 400 256) (pre7 g b rm rv : Spec.Mat 1 256) (W2t : Spec.Mat 256 128)
    (b2row : Spec.Mat 1 128) (C1B G1 BT1 RM1 RV1 : Spec.Vec 256) (W2 : Spec.Mat 128 256) (C2B : Spec.Vec 128)
    (hpre : IsRow pre7 C1B) (hg : IsRow g G1) (hb : IsRow b BT1) (hrm : IsRow rm RM1) (hrv : IsRow rv RV1)
    (hW : IsTr W2t W2) (hb2 : IsRow b2row C2B) :
    k0_pay8 (F := Ideal) h pre7 g b rm rv W2t b2row
      = Spec.lin W2 C2B (Spec.relu (Spec.bn G1 BT1 RM1 RV1 (Spec.addRow h C1B))) := by
  funext j
  obtain ⟨r, o, rfl⟩ : ∃ (r : Fin 400) (o : Fin 128), j = ix2 r o := ⟨j 0, j 1, eq_ix2 j⟩
  unfold k0_pay8
  simp only [shapeCast_self, addf_apply, subf_apply, mulf_apply, divf_apply, maximumf_apply, truncf_apply,
    broadcast_apply, broadcastTo_1b_ab_apply, sqrt_apply,
    matmul_plain_apply dot_S400x256_S256x128_S400x128_1_0_0_1_n_n rfl,
    Spec.lin_apply, Spec.relu_apply, Spec.bn_apply, Spec.addRow_apply, hpre _, hg _, hb _, hrm _, hrv _, hW _ _, hb2 _]
  rfl

/-- Batch normalisation, rectifier and the third dense layer, element by element, under the log-softmax. -/
theorem pay12_eq (h2 : Spec.Mat 400 128) (g2 bt2 rm2 rv2 : Spec.Mat 1 128) (W3t : Spec.Mat 128 10)
    (c3b : Spec.Mat 1 10) (G2 BT2 RM2 RV2 : Spec.Vec 128) (W3 : Spec.Mat 10 128) (C3B : Spec.Vec 10)
    (hg : IsRow g2 G2) (hb : IsRow bt2 BT2) (hrm : IsRow rm2 RM2) (hrv : IsRow rv2 RV2)
    (hW : IsTr W3t W3) (hc : IsRow c3b C3B) :
    k0_pay12 (F := Ideal) h2 g2 bt2 rm2 rv2 W3t c3b
      = Spec.logSoftmax (Spec.lin W3 C3B (Spec.relu (Spec.bn G2 BT2 RM2 RV2 h2))) := by
  refine (softmax_eq _).trans (congrArg Spec.logSoftmax (funext fun j => ?_))
  obtain ⟨r, o, rfl⟩ : ∃ (r : Fin 400) (o : Fin 10), j = ix2 r o := ⟨j 0, j 1, eq_ix2 j⟩
  simp only [shapeCast_self, addf_apply, subf_apply, mulf_apply, divf_apply, maximumf_apply, truncf_apply,
    broadcast_apply, broadcastTo_1b_ab_apply, sqrt_apply,
    matmul_plain_apply dot_S400x128_S128x10_S400x10_1_0_0_1_n_n rfl,
    Spec.lin_apply, Spec.relu_apply, Spec.bn_apply, hg _, hb _, hrm _, hrv _, hW _ _, hc _]
  rfl

theorem classHead_eq (x1t : Spec.Mat 400 128) (x2t : Spec.Mat 400 64)
    (aA : FVec Ideal S200x10000 .f32) (s : FVec Ideal S10000x64 .bf16)
    (aB : FVec Ideal S200x10000 .f32) (s' : FVec Ideal S10000x64 .bf16) (b2 : FVec Ideal S1x64 .f32)
    (hx2 : k0_pay5 (F := Ideal) aA s aB s' b2 = x2t)
    (Wa : Spec.Mat 128 256) (Wb : Spec.Mat 64 256) (c1b g1 bt1 rm1 rv1 : Spec.Mat 1 256)
    (W2t : Spec.Mat 256 128) (c2b g2 bt2 rm2 rv2 : Spec.Mat 1 128) (W3t : Spec.Mat 128 10) (c3b : Spec.Mat 1 10)
    (W1 : Spec.Mat 256 192) (C1B G1 BT1 RM1 RV1 : Spec.Vec 256)
    (W2 : Spec.Mat 128 256) (C2B G2 BT2 RM2 RV2 : Spec.Vec 128) (W3 : Spec.Mat 10 128) (C3B : Spec.Vec 10)
    (hWa : ∀ (k : Fin 128) (o : Fin 256), Wa (ix2 k o) = W1 (ix2 o ⟨k.val, by omega⟩))
    (hWb : ∀ (k : Fin 64) (o : Fin 256), Wb (ix2 k o) = W1 (ix2 o ⟨128 + k.val, by omega⟩))
    (hc1 : IsRow c1b C1B) (hg1 : IsRow g1 G1) (hb1 : IsRow bt1 BT1) (hrm1 : IsRow rm1 RM1) (hrv1 : IsRow rv1 RV1)
    (hW2 : IsTr W2t W2) (hc2 : IsRow c2b C2B)
    (hg2 : IsRow g2 G2) (hb2 : IsRow bt2 BT2) (hrm2 : IsRow rm2 RM2) (hrv2 : IsRow rv2 RV2)
    (hW3 : IsTr W3t W3) (hc3 : IsRow c3b C3B) :
    k0_pay12 (F := Ideal)
        (k0_pay8 (F := Ideal) (k0_pay6 (F := Ideal) x1t aA s aB s' b2 Wa Wb) (k0_pay7 (F := Ideal) c1b) g1 bt1 rm1 rv1 W2t c2b)
        (k0_pay9 (F := Ideal) g2) (k0_pay10 (F := Ideal) bt2) (k0_pay11 (F := Ideal) rm2) rv2 W3t c3b
      = Spec.logSoftmax (Spec.lin W3 C3B (Spec.relu (Spec.bn G2 BT2 RM2 RV2
          (Spec.lin W2 C2B (Spec.relu (Spec.bn G1 BT1 RM1 RV1
            (Spec.lin W1 C1B (Spec.hcat x1t x2t : Spec.Mat 400 192)))))))) := by
  subst hx2
  simp only [k0_pay7, k0_pay9, k0_pay10, k0_pay11, shapeCast_self]
  rw [pay12_eq _ g2 bt2 rm2 rv2 W3t c3b G2 BT2 RM2 RV2 W3 C3B hg2 hb2 hrm2 hrv2 hW3 hc3,
    pay8_eq _ c1b g1 bt1 rm1 rv1 W2t c2b C1B G1 BT1 RM1 RV1 W2 C2B hc1 hg1 hb1 hrm1 hrv1 hW2 hc2,
    pay6_addRow_eq x1t aA s aB s' b2 Wa Wb W1 C1B hWa hWb]

end Cert.KernelIdeal.Val

end
-- ==== Proof.KI.ValConv.lean ====
import proofs.«167823_g73521250173546_cont_sun_c4_545_21_alg».proof.Proof.Gen.KernelIdeal.Skeleton
import proofs.«167823_g73521250173546_cont_sun_c4_545_21_alg».proof.Proof.Spec
import proofs.«167823_g73521250173546_cont_sun_c4_545_21_alg».proof.Proof.KI.ValMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen Idealize.ShloMosaic Idealize.ShloMosaic.ValueIdx

/-- Row `r` of two stacked 200-row products is row `r` of the first or row `r - 200` of the second: row `400 j + r` of `A` either way. -/
theorem tile_gconv {n : Nat} (A : Cert.Spec.Mat 10000 10000) (v : Cert.Spec.Mat 10000 128) (W : Cert.Spec.Mat 128 n)
    (bias : Cert.Spec.Vec n) (j : Nat) (hj : j < 25)
    (D : DotDims ⟨2, ![200, 10000]⟩ ⟨2, ![10000, n]⟩ ⟨2, ![200, n]⟩) (hD : D = DotDims.plain 200 10000 n)
    (hc : Shape.Concatenates [⟨2, ![200, n]⟩, ⟨2, ![200, n]⟩] ⟨2, ![400, n]⟩ 0)
    (hbc : (⟨2, ![1, n]⟩ : Shape).Broadcasts ⟨2, ![400, n]⟩)
    (aA aB : Cert.Spec.Mat 200 10000) (s : Cert.Spec.Mat 10000 n) (b : Cert.Spec.Mat 1 n)
    (hA : ∀ (r : Fin 200) (a : Fin 10000), aA (ix2 r a) = A (ix2 (⟨400 * j + r.val, by omega⟩ : Fin 10000) a))
    (hB : ∀ (r : Fin 200) (a : Fin 10000), aB (ix2 r a) = A (ix2 (⟨400 * j + 200 + r.val, by omega⟩ : Fin 10000) a))
    (hs : ∀ (a : Fin 10000) (k : Fin n), s (ix2 a k) = Cert.Spec.matmul v W (ix2 a k))
    (hb : ∀ k : Fin n, b (ix2 (0 : Fin 1) k) = bias (ix1 k)) (r : Fin 400) (k : Fin n) :
    tanh (addf (concatenate ⟨2, ![400, n]⟩ 0
        [⟨⟨2, ![200, n]⟩, matmul D none aA s (constant ⟨2, ![200, n]⟩ .f32 0x00000000#32)⟩,
         ⟨⟨2, ![200, n]⟩, matmul D none aB s (constant ⟨2, ![200, n]⟩ .f32 0x00000000#32)⟩] hc)
      (broadcastTo ⟨2, ![400, n]⟩ b hbc)) (ix2 r k)
      = Cert.Spec.gconv A v W bias (ix2 (⟨400 * j + r.val, by omega⟩ : Fin 10000) k) := by
  rw [Cert.Spec.gconv_apply, ← hb k]
  show Ideal.tanh (_ + _) = _
  rw [broadcastTo_1b_ab_apply]
  refine congrArg (fun z => Ideal.tanh (z + b (ix2 (0 : Fin 1) k))) ?_
  by_cases h : r.val < 200
  · rw [concatenate_pair_apply_left (s₁ := ⟨2, ![200, n]⟩) (s₂ := ⟨2, ![200, n]⟩) (0 : Fin 2) _ _ hc (ix2 r k) rfl (ix2 ⟨r.val, h⟩ k)
      (fun c => by match c with | ⟨0, _⟩ => rfl | ⟨1, _⟩ => rfl), matmul_plain_apply D hD]
    exact Finset.sum_congr rfl fun a _ => by rw [hA, hs]
  · rw [concatenate_pair_apply_right (s₁ := ⟨2, ![200, n]⟩) (s₂ := ⟨2, ![200, n]⟩) (0 : Fin 2) _ _ hc (ix2 r k) rfl rfl (ix2 ⟨r.val - 200, by omega⟩ k)
      (fun c hc => by match c with | ⟨0, _⟩ => exact absurd rfl hc | ⟨1, _⟩ => rfl)
      (by show r.val - 200 + 200 = r.val; omega), matmul_plain_apply D hD]
    refine Finset.sum_congr rfl fun a _ => ?_
    rw [hB, hs]
    congr 4
    show 400 * j + 200 + (r.val - 200) = 400 * j + r.val
    omega

theorem pay1_eq (x : Vec Ideal S10000x128 .f32) (w : Vec Ideal S128x128 .f32) :
    k0_pay1 (F := Ideal) x w = Cert.Spec.matmul (m := 10000) (p := 128) (n := 128) x w := by
  funext j
  rw [eq_ix2 j]
  unfold k0_pay1
  rw [shapeCast_self]
  exact matmul_plain_apply _ (by rfl) _ _ _ _

theorem pay3_eq (x : Vec Ideal S10000x128 .f32) (w : Vec Ideal S128x64 .f32) :
    k0_pay3 (F := Ideal) x w = Cert.Spec.matmul (m := 10000) (p := 128) (n := 64) x w := by
  funext j
  rw [eq_ix2 j]
  unfold k0_pay3
  rw [shapeCast_self]
  exact matmul_plain_apply _ (by rfl) _ _ _ _

theorem pay2_gconv (A : Cert.Spec.Mat 10000 10000) (v : Cert.Spec.Mat 10000 128) (W : Cert.Spec.Mat 128 128)
    (bias : Cert.Spec.Vec 128) (j : Nat) (hj : j < 25)
    (aA aB : Vec Ideal S200x10000 .f32) (s : Vec Ideal S10000x128 .bf16) (b : Vec Ideal S1x128 .f32)
    (hA : ∀ (r : Fin 200) (a : Fin 10000), aA (ix2 r a) = A (ix2 (⟨400 * j + r.val, by have := r.isLt; omega⟩ : Fin 10000) a))
    (hB : ∀ (r : Fin 200) (a : Fin 10000),
      aB (ix2 r a) = A (ix2 (⟨400 * j + 200 + r.val, by have := r.isLt; omega⟩ : Fin 10000) a))
    (hs : ∀ (a : Fin 10000) (k : Fin 128), s (ix2 a k) = Cert.Spec.matmul v W (ix2 a k))
    (hb : ∀ k : Fin 128, b (ix2 (0 : Fin 1) k) = bias (ix1 k))
    (r : Fin 400) (k : Fin 128) :
    k0_pay2 (F := Ideal) aA s aB s b (ix2 r k)
      = Cert.Spec.gconv A v W bias (ix2 (⟨400 * j + r.val, by have := r.isLt; omega⟩ : Fin 10000) k) := by
  unfold k0_pay2
  rw [shapeCast_self, shapeCast_self]
  exact tile_gconv A v W bias j hj _ (by rfl) _ _ aA aB _ b hA hB hs hb r k

theorem pay5_gconv (A : Cert.Spec.Mat 10000 10000) (v : Cert.Spec.Mat 10000 128) (W : Cert.Spec.Mat 128 64)
    (bias : Cert.Spec.Vec 64) (j : Nat) (hj : j < 25)
    (aA aB : Vec Ideal S200x10000 .f32) (s : Vec Ideal S10000x64 .bf16) (b : Vec Ideal S1x64 .f32)
    (hA : ∀ (r : Fin 200) (a : Fin 10000), aA (ix2 r a) = A (ix2 (⟨400 * j + r.val, by have := r.isLt; omega⟩ : Fin 10000) a))
    (hB : ∀ (r : Fin 200) (a : Fin 10000),
      aB (ix2 r a) = A (ix2 (⟨400 * j + 200 + r.val, by have := r.isLt; omega⟩ : Fin 10000) a))
    (hs : ∀ (a : Fin 10000) (k : Fin 64), s (ix2 a k) = Cert.Spec.matmul v W (ix2 a k))
    (hb : ∀ k : Fin 64, b (ix2 (0 : Fin 1) k) = bias (ix1 k))
    (r : Fin 400) (k : Fin 64) :
    k0_pay5 (F := Ideal) aA s aB s b (ix2 r k)
      = Cert.Spec.gconv A v W bias (ix2 (⟨400 * j + r.val, by have := r.isLt; omega⟩ : Fin 10000) k) := by
  unfold k0_pay5
  rw [shapeCast_self]
  exact tile_gconv A v W bias j hj _ (by rfl) _ _ aA aB _ b hA hB hs hb r k

end Cert.KernelIdeal.Val

end
-- ==== Proof.KI.ValConvAt.lean ====
import proofs.«167823_g73521250173546_cont_sun_c4_545_21_alg».proof.Proof.KI.Data
import proofs.«167823_g73521250173546_cont_sun_c4_545_21_alg».proof.Proof.KI.ValConv

set_option maxRecDepth 16384

noncomputable section

open scoped BigOperators

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ) (c : Dev nD)
variable (X : Cert.Spec.Mat 10000 128) (A : Cert.Spec.Mat 10000 10000) (W1 : Cert.Spec.Mat 128 128) (B1 : Cert.Spec.Vec 128)
  (W2 : Cert.Spec.Mat 128 64) (B2 : Cert.Spec.Vec 64)

/-- The seven blocks the two layers use, as rows of six arrays. -/
structure ConvReads : Prop where
  adjLo : ∀ (t : Fin cfg0.N) (r : Fin 200) (a : Fin 10000),
    blk0_0 m c t (ix2 r a) = A (ix2 (⟨400 * (t.val % 25) + r.val, by have := r.isLt; omega⟩ : Fin 10000) a)
  adjHi : ∀ (t : Fin cfg0.N) (r : Fin 200) (a : Fin 10000),
    blk0_1 m c t (ix2 r a) = A (ix2 (⟨400 * (t.val % 25) + 200 + r.val, by have := r.isLt; omega⟩ : Fin 10000) a)
  feat : ∀ t : Fin cfg0.N, blk0_2 m c t = X
  w1 : ∀ t : Fin cfg0.N, blk0_3 m c t = W1
  b1 : ∀ (t : Fin cfg0.N) (k : Fin 128), blk0_4 m c t (ix2 (0 : Fin 1) k) = B1 (ix1 k)
  w2 : ∀ t : Fin cfg0.N, blk0_5 m c t = W2
  b2 : ∀ (t : Fin cfg0.N) (k : Fin 64), blk0_6 m c t (ix2 (0 : Fin 1) k) = B2 (ix1 k)

variable {m c X A W1 B1 W2 B2} (H : ConvReads m c X A W1 B1 W2 B2)
include H

theorem s1val_eq : s1val m c = Cert.Spec.sup1 X W1 := by
  unfold s1val Cert.Spec.sup1
  rw [H.feat, H.w1, pay1_eq]

theorem x1blk_apply (t : Fin cfg0.N) (r : Fin 400) (k : Fin 128) :
    x1blk m c t (ix2 r k)
      = Cert.Spec.x1 X A W1 B1 (ix2 (⟨400 * (t.val % 25) + r.val, by have := r.isLt; omega⟩ : Fin 10000) k) := by
  unfold x1blk Cert.Spec.x1
  exact pay2_gconv A X W1 B1 (t.val % 25) (Nat.mod_lt _ (by norm_num)) _ _ _ _ (H.adjLo t) (H.adjHi t)
    (fun a k => by rw [s1val_eq H]; rfl) (H.b1 t) r k

/-- Index i lies in tile i / 400 at row i mod 400, and 400 (i / 400 mod 25) + i mod 400 = i below 10000. -/
theorem x1full_eq : x1full m c = Cert.Spec.x1 X A W1 B1 := by
  funext idx
  obtain ⟨i, k, rfl⟩ : ∃ (i : Fin 10000) (k : Fin 128), idx = ix2 i k := ⟨idx 0, idx 1, eq_ix2 idx⟩
  unfold x1full
  show x1blk m c ⟨i.val / 400, _⟩ (ix2 (n0 := 400) (n1 := 128) ⟨i.val % 400, _⟩ ⟨k.val, _⟩) = _
  rw [x1blk_apply H]
  have ei : (⟨400 * (i.val / 400 % 25) + i.val % 400, by have := i.isLt; omega⟩ : Fin 10000) = i :=
    Fin.ext (by show 400 * (i.val / 400 % 25) + i.val % 400 = i.val; have := i.isLt; omega)
  exact congrArg (fun z => Cert.Spec.x1 X A W1 B1 (ix2 z k)) ei

theorem s2val_eq : s2val m c = Cert.Spec.sup2 X A W1 B1 W2 := by
  unfold s2val Cert.Spec.sup2
  rw [x1full_eq H, H.w2, pay3_eq]

theorem x2blk_apply (t : Fin cfg0.N) (r : Fin 400) (k : Fin 64) :
    x2blk m c t (ix2 r k)
      = Cert.Spec.x2 X A W1 B1 W2 B2 (ix2 (⟨400 * (t.val % 25) + r.val, by have := r.isLt; omega⟩ : Fin 10000) k) := by
  unfold x2blk Cert.Spec.x2
  exact pay5_gconv A (Cert.Spec.x1 X A W1 B1) W2 B2 (t.val % 25) (Nat.mod_lt _ (by norm_num)) _ _ _ _ (H.adjLo t) (H.adjHi t)
    (fun a k => by rw [s2val_eq H]; rfl) (H.b2 t) r k

theorem x1s_apply (t : Fin cfg0.N) (r : Fin 400) (k : Fin 128) :
    x1s m c t (ix2 r k)
      = Cert.Spec.x1 X A W1 B1 (ix2 (⟨400 * (t.val % 25) + r.val, by have := r.isLt; omega⟩ : Fin 10000) k) := by
  unfold x1s
  rw [x1full_eq H]

end Cert.KernelIdeal.Val

end
-- ==== Proof.KI.Weights2.lean ====
import proofs.«167823_g73521250173546_cont_sun_c4_545_21_alg».proof.Proof.KI.Weights

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

variable (m : (ℓ : Loc nD τ sig) → Buf (Elt Ideal) ℓ) (c : Dev nD) (t : Fin cfg0.N)

theorem blk0_4_apply (k : Fin 128) : blk0_4 m c t (ix2 0 k) = arg m c main_arg3 (ix1 k) :=
  row_apply (V m c main_v6) k (by dsimp only [V]; after_results) (idx_whole t 4 (by decide)) fun _ => rfl
theorem blk0_6_apply (k : Fin 64) : blk0_6 m c t (ix2 0 k) = arg m c main_arg5 (ix1 k) :=
  row_apply (V m c main_v7) k (by dsimp only [V]; after_results) (idx_whole t 6 (by decide)) fun _ => rfl

end Cert.KernelIdeal.Val
-- ==== Proof.KI.ValConvArgs.lean ====
import proofs.«167823_g73521250173546_cont_sun_c4_545_21_alg».proof.Proof.KI.ValConvAt
import proofs.«167823_g73521250173546_cont_sun_c4_545_21_alg».proof.Proof.KI.Weights
import proofs.«167823_g73521250173546_cont_sun_c4_545_21_alg».proof.Proof.KI.Weights2

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

theorem convReads (m : (ℓ : Loc nD τ sig) → Buf (Elt Ideal) ℓ) (c : Dev nD) :
    ConvReads m c (arg m c main_arg0) (arg m c main_arg1) (arg m c main_arg2) (arg m c main_arg3) (arg m c main_arg4)
      (arg m c main_arg5) :=
  ⟨blk0_0_apply m c, blk0_1_apply m c, blk0_2_eq m c, blk0_3_eq m c, blk0_4_apply m c, blk0_5_eq m c, blk0_6_apply m c⟩

end Cert.KernelIdeal.Val

end
-- ==== Proof.KI.Weights2b.lean ====
import proofs.«167823_g73521250173546_cont_sun_c4_545_21_alg».proof.Proof.KI.Weights

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

variable (m : (ℓ : Loc nD τ sig) → Buf (Elt Ideal) ℓ) (c : Dev nD) (t : Fin cfg0.N)

theorem blk0_9_apply (k : Fin 256) : blk0_9 m c t (ix2 0 k) = arg m c main_arg7 (ix1 k) :=
  row_apply (V m c main_v10) k (by dsimp only [V]; after_results) (idx_whole t 9 (by decide)) fun _ => rfl
theorem blk0_10_apply (k : Fin 256) : blk0_10 m c t (ix2 0 k) = arg m c main_arg8 (ix1 k) :=
  row_apply (V m c main_v11) k (by dsimp only [V]; after_results) (idx_whole t 10 (by decide)) fun _ => rfl
theorem blk0_11_apply (k : Fin 256) : blk0_11 m c t (ix2 0 k) = arg m c main_arg9 (ix1 k) :=
  row_apply (V m c main_v12) k (by dsimp only [V]; after_results) (idx_whole t 11 (by decide)) fun _ => rfl
theorem blk0_12_apply (k : Fin 256) : blk0_12 m c t (ix2 0 k) = arg m c main_arg10 (ix1 k) :=
  row_apply (V m c main_v13) k (by dsimp only [V]; after_results) (idx_whole t 12 (by decide)) fun _ => rfl
theorem blk0_13_apply (k : Fin 256) : blk0_13 m c t (ix2 0 k) = arg m c main_arg11 (ix1 k) :=
  row_apply (V m c main_v14) k (by dsimp only [V]; after_results) (idx_whole t 13 (by decide)) fun _ => rfl
theorem blk0_15_apply (k : Fin 128) : blk0_15 m c t (ix2 0 k) = arg m c main_arg13 (ix1 k) :=
  row_apply (V m c main_v15) k (by dsimp only [V]; after_results) (idx_whole t 15 (by decide)) fun _ => rfl
theorem blk0_16_apply (k : Fin 128) : blk0_16 m c t (ix2 0 k) = arg m c main_arg14 (ix1 k) :=
  row_apply (V m c main_v16) k (by dsimp only [V]; after_results) (idx_whole t 16 (by decide)) fun _ => rfl
theorem blk0_17_apply (k : Fin 128) : blk0_17 m c t (ix2 0 k) = arg m c main_arg15 (ix1 k) :=
  row_apply (V m c main_v17) k (by dsimp only [V]; after_results) (idx_whole t 17 (by decide)) fun _ => rfl
theorem blk0_18_apply (k : Fin 128) : blk0_18 m c t (ix2 0 k) = arg m c main_arg16 (ix1 k) :=
  row_apply (V m c main_v18) k (by dsimp only [V]; after_results) (idx_whole t 18 (by decide)) fun _ => rfl
theorem blk0_19_apply (k : Fin 128) : blk0_19 m c t (ix2 0 k) = arg m c main_arg17 (ix1 k) :=
  row_apply (V m c main_v19) k (by dsimp only [V]; after_results) (idx_whole t 19 (by decide)) fun _ => rfl
theorem blk0_21_apply (k : Fin 10) : blk0_21 m c t (ix2 0 k) = arg m c main_arg19 (ix1 k) :=
  row_apply (V m c main_v20) k (by dsimp only [V]; after_results) (idx_whole t 21 (by decide)) fun _ => rfl
theorem blk0_24_apply (k : Fin 256) : blk0_24 m c t (ix2 0 k) = arg m c main_arg21 (ix1 k) :=
  row_apply (V m c main_v23) k (by dsimp only [V]; after_results) (idx_whole t 24 (by decide)) fun _ => rfl
theorem blk0_26_apply (k : Fin 128) : blk0_26 m c t (ix2 0 k) = arg m c main_arg23 (ix1 k) :=
  row_apply (V m c main_v24) k (by dsimp only [V]; after_results) (idx_whole t 26 (by decide)) fun _ => rfl
theorem blk0_28_apply (k : Fin 128) : blk0_28 m c t (ix2 0 k) = arg m c main_arg25 (ix1 k) :=
  row_apply (V m c main_v25) k (by dsimp only [V]; after_results) (idx_whole t 28 (by decide)) fun _ => rfl

end Cert.KernelIdeal.Val
-- ==== Proof.KI.Weights3.lean ====
import proofs.«167823_g73521250173546_cont_sun_c4_545_21_alg».proof.Proof.KI.Weights

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

variable (m : (ℓ : Loc nD τ sig) → Buf (Elt Ideal) ℓ) (c : Dev nD) (t : Fin cfg0.N)

theorem blk0_7_apply (k : Fin 128) (o : Fin 256) :
    blk0_7 m c t (ix2 k o) = arg m c main_arg6 (ix2 o ⟨k.val, by have := k.isLt; omega⟩) :=
  trslice_apply 0 (V m c main_v8) k o _ (Nat.zero_add _).symm (by dsimp only [V]; after_results) (idx_whole t 7 (by decide)) fun _ => rfl
theorem blk0_8_apply (k : Fin 64) (o : Fin 256) :
    blk0_8 m c t (ix2 k o) = arg m c main_arg6 (ix2 o ⟨128 + k.val, by have := k.isLt; omega⟩) :=
  trslice_apply 128 (V m c main_v9) k o _ rfl (by dsimp only [V]; after_results) (idx_whole t 8 (by decide)) fun _ => rfl
theorem blk0_22_apply (k : Fin 128) (o : Fin 256) :
    blk0_22 m c t (ix2 k o) = arg m c main_arg20 (ix2 o ⟨k.val, by have := k.isLt; omega⟩) :=
  trslice_apply 0 (V m c main_v21) k o _ (Nat.zero_add _).symm (by dsimp only [V]; after_results) (idx_whole t 22 (by decide)) fun _ => rfl
theorem blk0_23_apply (k : Fin 64) (o : Fin 256) :
    blk0_23 m c t (ix2 k o) = arg m c main_arg20 (ix2 o ⟨128 + k.val, by have := k.isLt; omega⟩) :=
  trslice_apply 128 (V m c main_v22) k o _ rfl (by dsimp only [V]; after_results) (idx_whole t 23 (by decide)) fun _ => rfl

theorem blk0_14_apply (k : Fin 256) (o : Fin 128) : blk0_14 m c t (ix2 k o) = arg m c main_arg12 (ix2 o k) :=
  tr_apply (V m c main_v1) k o (by dsimp only [V]; after_results) (idx_whole t 14 (by decide)) fun _ => rfl
theorem blk0_20_apply (k : Fin 128) (o : Fin 10) : blk0_20 m c t (ix2 k o) = arg m c main_arg18 (ix2 o k) :=
  tr_apply (V m c main_v2) k o (by dsimp only [V]; after_results) (idx_whole t 20 (by decide)) fun _ => rfl
theorem blk0_25_apply (k : Fin 256) (o : Fin 128) : blk0_25 m c t (ix2 k o) = arg m c main_arg22 (ix2 o k) :=
  tr_apply (V m c main_v4) k o (by dsimp only [V]; after_results) (idx_whole t 25 (by decide)) fun _ => rfl
theorem blk0_27_apply (k : Fin 128) (o : Fin 128) : blk0_27 m c t (ix2 k o) = arg m c main_arg24 (ix2 o k) :=
  tr_apply (V m c main_v5) k o (by dsimp only [V]; after_results) (idx_whole t 27 (by decide)) fun _ => rfl

end Cert.KernelIdeal.Val
-- ==== Proof.KI.Cover.lean ====
import proofs.«167823_g73521250173546_cont_sun_c4_545_21_alg».proof.Proof.KI.Tables2
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat Cfg Window)
open Idealize.ShloMosaic.ValueIdx (ix2 eq_ix2)
open Cert.KernelIdeal Cert.KernelIdeal.Gen

variable {F : FTy → Type} [FloatOps F]

variable (m : (ℓ : Loc nD τ sig) → Buf (Elt F) ℓ)

abbrev rowOf (t : Fin cfg0.N) (r : Fin 400) : Fin 10000 :=
  ⟨400 * (t.val % 25) + r.val, by have := r.isLt; omega⟩

theorem idx_out : ∀ t : Fin cfg0.N, 25 ≤ t.val →
    win0_29.index t (0 : Fin 2) = t.val - 25 ∧ win0_29.index t (1 : Fin 2) = 0
    ∧ win0_30.index t (0 : Fin 2) = t.val - 25 ∧ win0_30.index t (1 : Fin 2) = 0
    ∧ win0_31.index t (0 : Fin 2) = t.val - 25 ∧ win0_31.index t (1 : Fin 2) = 0 :=
  (by decide +kernel : ∀ t : Fin grid0.N, _)

theorem sweep2_of_flush (t : Fin cfg0.N) (w : Fin 32) (hw : 29 ≤ w.val) (hf : (cfg0.win w).flush t = true) :
    25 ≤ t.val := by
  by_contra h
  rw [noflush_out t w hw (by omega)] at hf
  exact Bool.noConfusion hf

/-- For 25 ≤ t < 50, t - 25 = t mod 25: entry (r, o) of row tile t - 25 is entry (400 (t mod 25) + r, o). -/
theorem emb_out {n : Nat} (t : Fin cfg0.N) (ht : 25 ≤ t.val) {i : Fin 2 → Nat} (h0 : i 0 = t.val - 25) (h1 : i 1 = 0)
    {e : (⟨2, ![10000, n]⟩ : Shape).Idx} (j : (⟨2, ![400, n]⟩ : Shape).Idx)
    (he : ∀ a, (e a).val = i a * (⟨2, ![400, n]⟩ : Shape).size a + 1 * (j a).val) : e = ix2 (rowOf t (j 0)) (j 1) := by
  have := lt_of_lt_of_eq t.isLt N50
  funext a; apply Fin.ext; rw [he]
  match a with
  | ⟨0, _⟩ => show i 0 * 400 + 1 * (j 0).val = 400 * (t.val % 25) + (j 0).val; omega
  | ⟨1, _⟩ => show i 1 * n + 1 * (j 1).val = (j 1).val; rw [h1]; omega

/-- Row x lies in row tile x / 400, and x / 400 < 25. -/
theorem cover_out {n : Nat} (x : (⟨2, ![10000, n]⟩ : Shape).Idx) : ∃ t : Fin cfg0.N, 25 ≤ t.val ∧
    ∀ i : Fin 2 → Nat, i 0 = t.val - 25 → i 1 = 0 → ∀ a, i a * (⟨2, ![400, n]⟩ : Shape).size a ≤ (x a).val
      ∧ (x a).val < i a * (⟨2, ![400, n]⟩ : Shape).size a + (⟨2, ![400, n]⟩ : Shape).size a := by
  have h0 : (x 0).val < 10000 := (x 0).isLt
  have h1 : (x 1).val < n := (x 1).isLt
  obtain ⟨t, ht⟩ : ∃ t : Fin cfg0.N, t.val = 25 + (x 0).val / 400 :=
    ⟨⟨25 + (x 0).val / 400, lt_of_lt_of_eq (show 25 + (x 0).val / 400 < 50 by omega) N50.symm⟩, rfl⟩
  refine ⟨t, by omega, fun i e0 e1 a => ?_⟩
  match a with
  | ⟨0, _⟩ => show i 0 * 400 ≤ (x 0).val ∧ (x 0).val < i 0 * 400 + 400; omega
  | ⟨1, _⟩ => show i 1 * n ≤ (x 1).val ∧ (x 1).val < i 1 * n + n; rw [e1]; omega

theorem arrAt29_eq (c : Dev nD) (G : Vec F S10000x10 .f32)
    (hG : ∀ (t : Fin cfg0.N) (r : Fin 400) (o : Fin 10), out29 m c t (ix2 r o) = G (ix2 (rowOf t r) o)) :
    (dats m 0 c).arrAt 29 cfg0.N = G := by
  refine (dats m 0 c).arrAt_eq_of_cover 29 G (fun t hf => ?_) fun x => ?_
  · have ht := sweep2_of_flush t 29 (by decide) hf
    obtain ⟨e0, e1, -⟩ := idx_out t ht
    show (cfg0.win 29).cut (grid0.coords t) ((dats m 0 c).after 29 t) = _
    rw [after0_29]
    funext j
    exact ((congrArg (out29 m c t) (eq_ix2 j)).trans (hG t _ _)).trans (congrArg G (emb_out t ht e0 e1 j fun _ => rfl).symm)
  · obtain ⟨t, ht, h⟩ := cover_out x
    obtain ⟨e0, e1, -⟩ := idx_out t ht
    refine ⟨t, flush_out t 29 (by decide) ht, ?_⟩
    show x ∈ ((View.whole main_v26_0).slice (win0_29.rect t)).set
    rw [View.set_slice_whole, Rect.mem_set_unit]
    exact h _ e0 e1

theorem arrAt30_eq (c : Dev nD) (G : Vec F S10000x128 .f32)
    (hG : ∀ (t : Fin cfg0.N) (r : Fin 400) (o : Fin 128), out30 m c t (ix2 r o) = G (ix2 (rowOf t r) o)) :
    (dats m 0 c).arrAt 30 cfg0.N = G := by
  refine (dats m 0 c).arrAt_eq_of_cover 30 G (fun t hf => ?_) fun x => ?_
  · have ht := sweep2_of_flush t 30 (by decide) hf
    obtain ⟨-, -, e0, e1, -⟩ := idx_out t ht
    show (cfg0.win 30).cut (grid0.coords t) ((dats m 0 c).after 30 t) = _
    rw [after0_30]
    funext j
    exact ((congrArg (out30 m c t) (eq_ix2 j)).trans (hG t _ _)).trans (congrArg G (emb_out t ht e0 e1 j fun _ => rfl).symm)
  · obtain ⟨t, ht, h⟩ := cover_out x
    obtain ⟨-, -, e0, e1, -⟩ := idx_out t ht
    refine ⟨t, flush_out t 30 (by decide) ht, ?_⟩
    show x ∈ ((View.whole main_v26_1).slice (win0_30.rect t)).set
    rw [View.set_slice_whole, Rect.mem_set_unit]
    exact h _ e0 e1

theorem arrAt31_eq (c : Dev nD) (G : Vec F S10000x192 .f32)
    (hG : ∀ (t : Fin cfg0.N) (r : Fin 400) (o : Fin 192), out31 m c t (ix2 r o) = G (ix2 (rowOf t r) o)) :
    (dats m 0 c).arrAt 31 cfg0.N = G := by
  refine (dats m 0 c).arrAt_eq_of_cover 31 G (fun t hf => ?_) fun x => ?_
  · have ht := sweep2_of_flush t 31 (by decide) hf
    obtain ⟨-, -, -, -, e0, e1⟩ := idx_out t ht
    show (cfg0.win 31).cut (grid0.coords t) ((dats m 0 c).after 31 t) = _
    rw [after0_31]
    funext j
    exact ((congrArg (out31 m c t) (eq_ix2 j)).trans (hG t _ _)).trans (congrArg G (emb_out t ht e0 e1 j fun _ => rfl).symm)
  · obtain ⟨t, ht, h⟩ := cover_out x
    obtain ⟨-, -, -, -, e0, e1⟩ := idx_out t ht
    refine ⟨t, flush_out t 31 (by decide) ht, ?_⟩
    show x ∈ ((View.whole main_v26_2).slice (win0_31.rect t)).set
    rw [View.set_slice_whole, Rect.mem_set_unit]
    exact h _ e0 e1

end Cert.KernelIdeal.Hand

end
-- ==== Proof.KI.ValAt29.lean ====
import proofs.«167823_g73521250173546_cont_sun_c4_545_21_alg».proof.Proof.KI.ValAt
import proofs.«167823_g73521250173546_cont_sun_c4_545_21_alg».proof.Proof.KI.ValClass
import proofs.«167823_g73521250173546_cont_sun_c4_545_21_alg».proof.Proof.KI.ValConvArgs
import proofs.«167823_g73521250173546_cont_sun_c4_545_21_alg».proof.Proof.KI.Weights2b
import proofs.«167823_g73521250173546_cont_sun_c4_545_21_alg».proof.Proof.KI.Weights3
import proofs.«167823_g73521250173546_cont_sun_c4_545_21_alg».proof.Proof.KI.Cover

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

variable (m : (ℓ : Loc nD τ sig) → Buf (Elt Ideal) ℓ) (c : Dev nD)

/-- The tile is the head of the two layers' tiles side by side, and the head acts row by row. -/
theorem out29_spec (t : Fin cfg0.N) (r : Fin 400) (o : Fin 10) :
    out29 m c t (ix2 r o) = specXc5 m c (ix2 (rowOf t r) o) :=
  (congrFun (classHead_eq (x1s m c t) (x2blk m c t) (blk0_0 m c t) (s2val m c) (blk0_1 m c t) (s2val m c) (blk0_6 m c t) rfl
    _ _ _ _ _ _ _ _ _ _ _ _ _ _ _ _ _ _ _ _ _ _ _ _ _ _ _ _ _
    (blk0_7_apply m c t) (blk0_8_apply m c t) (blk0_9_apply m c t) (blk0_10_apply m c t) (blk0_11_apply m c t)
    (blk0_12_apply m c t) (blk0_13_apply m c t) (blk0_14_apply m c t) (blk0_15_apply m c t) (blk0_16_apply m c t)
    (blk0_17_apply m c t) (blk0_18_apply m c t) (blk0_19_apply m c t) (blk0_20_apply m c t) (blk0_21_apply m c t))
    (ix2 r o)).trans (xc5_tile (rowOf t) (x1s_apply (convReads m c) t) (x2blk_apply (convReads m c) t) r o)

theorem arrAt29_spec : (dats (F := Ideal) m 0 c).arrAt 29 cfg0.N = specXc5 m c :=
  arrAt29_eq m c _ (out29_spec m c)

end Cert.KernelIdeal.Val

end
-- ==== Proof.KI.ValRecon.lean ====
import proofs.«167823_g73521250173546_cont_sun_c4_545_21_alg».proof.Proof.KI.ValMatmul
import proofs.«167823_g73521250173546_cont_sun_c4_545_21_alg».proof.Proof.Spec
import Idealize.ShloMosaic.Lib.ValueLayout
import Idealize.ShloMosaic.Lib.Pipeline.Value
import Mathlib.Algebra.BigOperators.Fin

noncomputable section

open scoped BigOperators

namespace Cert.KernelIdeal.Val

open Cert.KernelIdeal Cert.KernelIdeal.Gen Idealize.ShloMosaic Idealize.ShloMosaic.ValueIdx

/-- Each dense layer is a sum of products with the transposed weight; the first splits over the 128 + 64 columns. -/
theorem pay4_eq (x1t : Cert.Spec.Mat 400 128) (x2t : Cert.Spec.Mat 400 64)
    (Wa : Vec Ideal S128x256 .f32) (Wb : Vec Ideal S64x256 .f32) (b1 : Vec Ideal S1x256 .f32)
    (W2t : Vec Ideal S256x128 .f32) (b2 : Vec Ideal S1x128 .f32) (W3t : Vec Ideal S128x128 .f32) (b3 : Vec Ideal S1x128 .f32)
    (W1 : Cert.Spec.Mat 256 192) (B1 : Cert.Spec.Vec 256) (W2 : Cert.Spec.Mat 128 256) (B2 : Cert.Spec.Vec 128)
    (W3 : Cert.Spec.Mat 128 128) (B3 : Cert.Spec.Vec 128)
    (hWa : ∀ (k : Fin 128) (o : Fin 256), Wa (ix2 k o) = W1 (ix2 o ⟨k.val, by have := k.isLt; omega⟩))
    (hWb : ∀ (k : Fin 64) (o : Fin 256), Wb (ix2 k o) = W1 (ix2 o ⟨128 + k.val, by have := k.isLt; omega⟩))
    (hb1 : ∀ o : Fin 256, b1 (ix2 (0 : Fin 1) o) = B1 (ix1 o))
    (hW2 : ∀ (k : Fin 256) (o : Fin 128), W2t (ix2 k o) = W2 (ix2 o k))
    (hb2 : ∀ o : Fin 128, b2 (ix2 (0 : Fin 1) o) = B2 (ix1 o))
    (hW3 : ∀ (k : Fin 128) (o : Fin 128), W3t (ix2 k o) = W3 (ix2 o k))
    (hb3 : ∀ o : Fin 128, b3 (ix2 (0 : Fin 1) o) = B3 (ix1 o)) :
    k0_pay4 (F := Ideal) x2t (k0_pay13 (F := Ideal) x1t Wa) Wb b1 W2t b2 W3t b3
      = (Cert.Spec.lin W3 B3 (Cert.Spec.relu (Cert.Spec.lin W2 B2 (Cert.Spec.relu
          (Cert.Spec.lin W1 B1 (Cert.Spec.hcat x1t x2t))))) : Cert.Spec.Mat 400 128) := by
  funext j
  obtain ⟨r, o, rfl⟩ : ∃ (r : Fin 400) (o : Fin 128), j = ix2 r o := ⟨j 0, j 1, eq_ix2 j⟩
  unfold k0_pay4 k0_pay13
  simp only [addf_apply, maximumf_apply, truncf_apply, broadcast_apply, shapeCast_self, broadcastTo_1b_ab_apply,
    matmul_plain_apply dot_S400x128_S128x128_S400x128_1_0_0_1_n_n rfl,
    matmul_plain_apply dot_S400x256_S256x128_S400x128_1_0_0_1_n_n rfl,
    matmul_plain_apply dot_S400x64_S64x256_S400x256_1_0_0_1_n_n rfl,
    matmul_plain_apply dot_S400x128_S128x256_S400x256_1_0_0_1_n_n rfl,
    Cert.Spec.lin_apply, Cert.Spec.relu_apply, hW2, hW3, hb1, hb2, hb3, sum_hcat_split x1t x2t W1 Wa Wb hWa hWb]
  rfl

end Cert.KernelIdeal.Val

end
-- ==== Proof.KI.ValAt30.lean ====
import proofs.«167823_g73521250173546_cont_sun_c4_545_21_alg».proof.Proof.KI.ValAt
import proofs.«167823_g73521250173546_cont_sun_c4_545_21_alg».proof.Proof.KI.ValRecon
import proofs.«167823_g73521250173546_cont_sun_c4_545_21_alg».proof.Proof.KI.ValConvArgs
import proofs.«167823_g73521250173546_cont_sun_c4_545_21_alg».proof.Proof.KI.Weights2b
import proofs.«167823_g73521250173546_cont_sun_c4_545_21_alg».proof.Proof.KI.Weights3
import proofs.«167823_g73521250173546_cont_sun_c4_545_21_alg».proof.Proof.KI.Cover

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

variable (m : (ℓ : Loc nD τ sig) → Buf (Elt Ideal) ℓ) (c : Dev nD)

/-- The tile is the head of the two layers' tiles side by side, and the head acts row by row. -/
theorem out30_spec (t : Fin cfg0.N) (r : Fin 400) (o : Fin 128) :
    out30 m c t (ix2 r o) = specXr5 m c (ix2 (rowOf t r) o) :=
  (congrFun (pay4_eq (x1s m c t) (x2blk m c t) _ _ _ _ _ _ _ _ _ _ _ _ _
    (blk0_22_apply m c t) (blk0_23_apply m c t) (blk0_24_apply m c t) (blk0_25_apply m c t)
    (blk0_26_apply m c t) (blk0_27_apply m c t) (blk0_28_apply m c t))
    (ix2 r o)).trans (xr5_tile (rowOf t) (x1s_apply (convReads m c) t) (x2blk_apply (convReads m c) t) r o)

theorem arrAt30_spec : (dats (F := Ideal) m 0 c).arrAt 30 cfg0.N = specXr5 m c :=
  arrAt30_eq m c _ (out30_spec m c)

end Cert.KernelIdeal.Val

end
-- ==== Proof.KI.ValCat.lean ====
import proofs.«167823_g73521250173546_cont_sun_c4_545_21_alg».proof.Proof.Gen.KernelIdeal.Skeleton
import proofs.«167823_g73521250173546_cont_sun_c4_545_21_alg».proof.Proof.Spec
import Idealize.ShloMosaic.Lib.Pipeline.Value
import Idealize.ShloMosaic.Lib.Pipeline.FrameBody
import Idealize.ShloMosaic.Lib.ValueIdx

noncomputable section

namespace Cert.KernelIdeal.Val

open Cert.KernelIdeal Cert.KernelIdeal.Gen Idealize.ShloMosaic Idealize.ShloMosaic.ValueIdx

/-- A unit-stride rectangle places `(a, b)` at its offset plus `(a, b)`. -/
theorem emb_left (h₁ : ∀ a, (![0, 0] : Fin 2 → Nat) a + S400x128.size a ≤ S400x192.size a) (a : Fin 400) (b : Fin 128) :
    (Rect.unit (s := S400x192) ![0, 0] S400x128.size h₁).emb (ix2 a b)
      = ix2 a (⟨b.val, by have := b.isLt; omega⟩ : Fin 192) :=
  funext fun ax => Fin.ext (by
    match ax with
    | ⟨0, _⟩ => show 0 + 1 * a.val = a.val; omega
    | ⟨1, _⟩ => show 0 + 1 * b.val = b.val; omega)

theorem emb_right (h₂ : ∀ a, (![0, 128] : Fin 2 → Nat) a + S400x64.size a ≤ S400x192.size a) (a : Fin 400) (b : Fin 64) :
    (Rect.unit (s := S400x192) ![0, 128] S400x64.size h₂).emb (ix2 a b)
      = ix2 a (⟨128 + b.val, by have := b.isLt; omega⟩ : Fin 192) :=
  funext fun ax => Fin.ext (by
    match ax with
    | ⟨0, _⟩ => show 0 + 1 * a.val = a.val; omega
    | ⟨1, _⟩ => show 128 + 1 * b.val = 128 + b.val; omega)

/-- A column below 128 lies only in the earlier piece; any other lies in the later piece, 128 columns in. -/
theorem canon_hcat (x1t : Cert.Spec.Mat 400 128) (x2t : Cert.Spec.Mat 400 64)
    (h₁ : ∀ a, (![0, 0] : Fin 2 → Nat) a + S400x128.size a ≤ S400x192.size a)
    (h₂ : ∀ a, (![0, 128] : Fin 2 → Nat) a + S400x64.size a ≤ S400x192.size a) :
    View.canon (Val := Elt Ideal) (e := .f32) [⟨Rect.unit (s := S400x192) ![0, 128] S400x64.size h₂, x2t⟩,
        ⟨Rect.unit (s := S400x192) ![0, 0] S400x128.size h₁, x1t⟩]
      = (Cert.Spec.hcat x1t x2t : Cert.Spec.Mat 400 192) := by
  funext y
  obtain ⟨a, k, rfl⟩ : ∃ (a : Fin 400) (k : Fin 192), y = ix2 a k := ⟨y 0, y 1, eq_ix2 y⟩
  by_cases hk : k.val < 128
  · have e : (Rect.unit (s := S400x192) ![0, 0] S400x128.size h₁).emb (ix2 a ⟨k.val, hk⟩) = ix2 a k := emb_left h₁ a _
    refine ((Rect.unit (s := S400x192) ![0, 128] S400x64.size h₂).overlay_of_not_mem _ x2t (j := ix2 a k)
      fun hm => Nat.not_le.2 hk (Rect.mem_set_unit.mp hm 1).1).trans ?_
    rw [Cert.Spec.hcat_apply_left x1t x2t a k hk, ← e]
    exact View.canon_cons_emb ..
  · have e : (Rect.unit (s := S400x192) ![0, 128] S400x64.size h₂).emb (ix2 a ⟨k.val - 128, by omega⟩) = ix2 a k :=
      (emb_right h₂ a _).trans (congrArg (ix2 a) (Fin.ext (by show 128 + (k.val - 128) = k.val; omega)))
    rw [Cert.Spec.hcat_apply_right x1t x2t a k hk, ← e]
    exact View.canon_cons_emb ..

end Cert.KernelIdeal.Val

end
-- ==== Proof.KI.ValAt31.lean ====
import proofs.«167823_g73521250173546_cont_sun_c4_545_21_alg».proof.Proof.KI.ValAt
import proofs.«167823_g73521250173546_cont_sun_c4_545_21_alg».proof.Proof.KI.ValCat
import proofs.«167823_g73521250173546_cont_sun_c4_545_21_alg».proof.Proof.KI.ValConvArgs
import proofs.«167823_g73521250173546_cont_sun_c4_545_21_alg».proof.Proof.KI.Cover

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

variable (m : (ℓ : Loc nD τ sig) → Buf (Elt Ideal) ℓ) (c : Dev nD)

/-- The tile is the two layers' tiles side by side. -/
theorem out31_spec (t : Fin cfg0.N) (r : Fin 400) (k : Fin 192) :
    out31 m c t (ix2 r k) = specZn m c (ix2 (rowOf t r) k) :=
  (congrFun (canon_hcat (x1s m c t) (x2blk m c t) _ _) (ix2 r k)).trans (zn_tile (rowOf t) (x1s_apply (convReads m c) t) (x2blk_apply (convReads m c) t) r k)

theorem arrAt31_spec : (dats (F := Ideal) m 0 c).arrAt 31 cfg0.N = specZn m c :=
  arrAt31_eq m c _ (out31_spec m c)

end Cert.KernelIdeal.Val

end
-- ==== Proof.RefValue.Stages.lean ====
import proofs.«167823_g73521250173546_cont_sun_c4_545_21_alg».proof.Proof.RefRead
import proofs.«167823_g73521250173546_cont_sun_c4_545_21_alg».proof.Proof.Spec
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

variable (x0 : (⟨S10000x128, .f32⟩ : BufTy).Contents (Elt Ideal))
  (x1 : (⟨S10000x10000, .f32⟩ : BufTy).Contents (Elt Ideal))
  (x2 : (⟨S128x128, .f32⟩ : BufTy).Contents (Elt Ideal))
  (x3 : (⟨S128, .f32⟩ : BufTy).Contents (Elt Ideal))
  (x4 : (⟨S128x64, .f32⟩ : BufTy).Contents (Elt Ideal))
  (x5 : (⟨S64, .f32⟩ : BufTy).Contents (Elt Ideal))
  (x6 : (⟨S256x192, .f32⟩ : BufTy).Contents (Elt Ideal))
  (x7 x8 x9 x10 x11 : (⟨S256, .f32⟩ : BufTy).Contents (Elt Ideal))
  (x12 : (⟨S128x256, .f32⟩ : BufTy).Contents (Elt Ideal))
  (x13 x14 x15 x16 x17 : (⟨S128, .f32⟩ : BufTy).Contents (Elt Ideal))
  (x18 : (⟨S10x128, .f32⟩ : BufTy).Contents (Elt Ideal))
  (x19 : (⟨S10, .f32⟩ : BufTy).Contents (Elt Ideal))
  (x20 : (⟨S256x192, .f32⟩ : BufTy).Contents (Elt Ideal))
  (x21 : (⟨S256, .f32⟩ : BufTy).Contents (Elt Ideal))
  (x22 : (⟨S128x256, .f32⟩ : BufTy).Contents (Elt Ideal))
  (x23 : (⟨S128, .f32⟩ : BufTy).Contents (Elt Ideal))
  (x24 : (⟨S128x128, .f32⟩ : BufTy).Contents (Elt Ideal))
  (x25 : (⟨S128, .f32⟩ : BufTy).Contents (Elt Ideal))

/-- Rank-2 (rank-1) indices with equal coordinates are equal. -/
macro "idx2" : tactic => `(tactic| (funext a; apply Fin.ext; match a with | ⟨0, _⟩ => rfl | ⟨1, _⟩ => rfl))
macro "idx1" : tactic => `(tactic| (funext a; apply Fin.ext; match a with | ⟨0, _⟩ => rfl))

/-- A column below 128 reads the first piece there; a later column reads the second piece 128 columns to the left. -/
theorem concat_eq_hcat (a : (⟨S10000x128, .f32⟩ : BufTy).Contents (Elt Ideal)) (b : (⟨S10000x64, .f32⟩ : BufTy).Contents (Elt Ideal)) :
    concatenate S10000x192 1 [⟨S10000x128, a⟩, ⟨S10000x64, b⟩] concatenates_S10000x128_S10000x64_S10000x192_d1
      = Spec.hcat (m := 10000) (p := 128) (q := 64) a b := by
  funext j
  by_cases h : (j 1).val < 128
  · rw [concatenate_pair_apply_left (1 : Fin 2) a b concatenates_S10000x128_S10000x64_S10000x192_d1 j rfl
      (ix2 (Spec.r2 j) ⟨(j 1).val, h⟩) (fun b => match b with | ⟨0, _⟩ => rfl | ⟨1, _⟩ => rfl)]
    show _ = dite ((j 1).val < 128) _ _
    rw [dif_pos h]
  · have h2 : (j 1).val - 128 < 64 := by have := (j 1).isLt; simp at this; omega
    rw [concatenate_pair_apply_right (1 : Fin 2) a b concatenates_S10000x128_S10000x64_S10000x192_d1 j rfl rfl
      (ix2 (Spec.r2 j) ⟨(j 1).val - 128, h2⟩) (fun b hb => match b, hb with | ⟨0, _⟩, _ => rfl | ⟨1, _⟩, hb => absurd rfl hb)
      (show (j 1).val - 128 + 128 = (j 1).val by omega)]
    show _ = dite ((j 1).val < 128) _ _
    rw [dif_neg h]

theorem reduces_d1 : S10000x10.Reduces [1] S10000 := by decide

/-- Putting column `k` back into the reduced row index `i` gives (i, k). -/
theorem lift_ix2 (h : S10000x10.Reduces [1] S10000) (i : Fin 10000) (k : Fin (S10000x10.size 1)) :
    h.lift (ix1 i) k = ix2 i (⟨k.val, k.isLt⟩ : Fin 10) := by
  funext c; apply Fin.ext
  fin_cases c <;> rfl

/-- A maximum-reduce along the columns is the fold of `max` over the row from the initial element. -/
theorem reduceMax_apply (l : (⟨S10000x10, .f32⟩ : BufTy).Contents (Elt Ideal)) (init : (⟨S_, .f32⟩ : BufTy).Contents (Elt Ideal)) (i : Fin 10000) :
    Host.reduce (FloatOps.maximumf (F := Ideal) (φ := .f32)) l init reducesTo_S10000x10_S10000_d1 h_S_ (ix1 i)
      = (Finset.univ : Finset (Fin 10)).fold max (init (Shape.Idx.first h_S_)) (fun o => l (ix2 i o)) := by
  refine (Host.reduce_eq_fold_single (FloatOps.maximumf (F := Ideal) (φ := .f32)) l init reducesTo_S10000x10_S10000_d1 reduces_d1 h_S_ (ix1 i)).trans ?_
  have hf : (l ∘ reduces_d1.lift (ix1 i)) = fun o : Fin 10 => l (ix2 i o) := by
    funext k; exact congrArg l (lift_ix2 reduces_d1 i k)
  rw [hf]
  rfl

/-- A product read index by index is the sum over the contracted axis. -/
theorem sup1_eq :
    val_main_v0 x0 x2 = Spec.matmul (x0) (x2) := by
  funext j
  rw [val_main_v0_apply]
  show _ = ∑ a : Fin 128, (x0) (ix2 (Spec.r2 j) a) * (x2) (ix2 a (Spec.c2 j))
  refine Finset.sum_congr rfl fun k _ => ?_
  rw [show lidx_main_v0 j k = ix2 (Spec.r2 j) k from by idx2, show ridx_main_v0 j k = ix2 k (Spec.c2 j) from by idx2]

/-- tanh (adj · (x · W₁) + b₁), read index by index. -/
theorem x1_eq :
    val_main_v5 x0 x1 x2 x3 = Spec.tanhMat (Spec.addRow (Spec.matmul x1 (Spec.matmul x0 x2)) x3) := by
  funext j
  rw [val_main_v5_apply, val_main_v4_apply, val_main_v1_apply, val_main_v3_apply, val_main_v2_apply, sup1_eq,
    show idx_main_v2 (idx_main_v3 j) = ix1 (Spec.c2 j) from by idx1]
  show Ideal.tanh ((∑ k : Fin 10000, _) + _)
    = Ideal.tanh ((∑ a : Fin 10000, x1 (ix2 (Spec.r2 j) a) * (Spec.matmul x0 x2) (ix2 a (Spec.c2 j))) + x3 (ix1 (Spec.c2 j)))
  refine congrArg Ideal.tanh (congrArg (· + _) (Finset.sum_congr rfl fun k _ => ?_))
  rw [show lidx_main_v1 j k = ix2 (Spec.r2 j) k from by idx2, show ridx_main_v1 j k = ix2 k (Spec.c2 j) from by idx2]

theorem sup2_eq :
    val_main_v6 x0 x1 x2 x3 x4 = Spec.matmul (val_main_v5 x0 x1 x2 x3) (x4) := by
  funext j
  rw [val_main_v6_apply]
  show _ = ∑ a : Fin 128, (val_main_v5 x0 x1 x2 x3) (ix2 (Spec.r2 j) a) * (x4) (ix2 a (Spec.c2 j))
  refine Finset.sum_congr rfl fun k _ => ?_
  rw [show lidx_main_v6 j k = ix2 (Spec.r2 j) k from by idx2, show ridx_main_v6 j k = ix2 k (Spec.c2 j) from by idx2]

/-- tanh (adj · (x₁ · W₂) + b₂), read index by index. -/
theorem x2_eq :
    val_main_v11 x0 x1 x2 x3 x4 x5 = Spec.tanhMat (Spec.addRow (Spec.matmul x1 (Spec.matmul (val_main_v5 x0 x1 x2 x3) x4)) x5) := by
  funext j
  rw [val_main_v11_apply, val_main_v10_apply, val_main_v7_apply, val_main_v9_apply, val_main_v8_apply, sup2_eq,
    show idx_main_v8 (idx_main_v9 j) = ix1 (Spec.c2 j) from by idx1]
  show Ideal.tanh ((∑ k : Fin 10000, _) + _)
    = Ideal.tanh ((∑ a : Fin 10000, x1 (ix2 (Spec.r2 j) a) * (Spec.matmul (val_main_v5 x0 x1 x2 x3) x4) (ix2 a (Spec.c2 j))) + x5 (ix1 (Spec.c2 j)))
  refine congrArg Ideal.tanh (congrArg (· + _) (Finset.sum_congr rfl fun k _ => ?_))
  rw [show lidx_main_v7 j k = ix2 (Spec.r2 j) k from by idx2, show ridx_main_v7 j k = ix2 k (Spec.c2 j) from by idx2]

theorem zcat_eq :
    val_main_v12 x0 x1 x2 x3 x4 x5 = Spec.zcat x0 x1 x2 x3 x4 x5 := by
  unfold val_main_v12
  rw [concat_eq_hcat, x2_eq, x1_eq]
  rfl

/-- A dense layer read at an index: the input's row times the weight's row, plus the bias entry. -/
theorem lin_of {m p q : Nat} {W : Spec.Mat q p} {b : Spec.Vec q} {z : Spec.Mat m p} {v : Spec.Mat m q}
    (h : ∀ j, v j = (∑ k : Fin p, z (ix2 (Spec.r2 j) k) * W (ix2 (Spec.c2 j) k)) + b (ix1 (Spec.c2 j))) :
    v = Spec.lin W b z := funext h

theorem linc1_eq :
    val_main_v17 x0 x1 x2 x3 x4 x5 x6 x7 = Spec.lin x6 x7 (val_main_v12 x0 x1 x2 x3 x4 x5) := lin_of fun j => by
  rw [val_main_v17_apply, val_main_v14_apply, val_main_v16_apply, val_main_v15_apply,
    show idx_main_v15 (idx_main_v16 j) = ix1 (Spec.c2 j) from by idx1]
  show (_ + _ : EReal) = _
  refine congrArg (· + _) (Finset.sum_congr rfl fun k _ => ?_)
  rw [val_main_v13_apply, show lidx_main_v14 j k = ix2 (Spec.r2 j) k from by idx2,
    show idx_main_v13 (ridx_main_v14 j k) = ix2 (Spec.c2 j) k from by idx2]

/-- Batch normalisation is elementwise in the column's statistics: both sides are the same expression at each index. -/
theorem bn1_eq :
    val_main_v32 x0 x1 x2 x3 x4 x5 x6 x7 x8 x9 x10 x11 = Spec.bn x8 x9 x10 x11 (val_main_v17 x0 x1 x2 x3 x4 x5 x6 x7) := by
  funext j
  rw [val_main_v32_apply, val_main_v29_apply, val_main_v26_apply, val_main_v20_apply, val_main_v19_apply, val_main_v18_apply,
    val_main_v25_apply, val_main_v24_apply, val_main_v23_apply, val_main_v22_apply, val_main_v21_apply, val_main_cst_apply,
    val_main_v28_apply, val_main_v27_apply, val_main_v31_apply, val_main_v30_apply,
    show idx_main_v18 (idx_main_v19 j) = ix1 (Spec.c2 j) from by idx1,
    show idx_main_v24 (idx_main_v25 j) = ix1 (Spec.c2 j) from by idx1,
    show idx_main_v27 (idx_main_v28 j) = ix1 (Spec.c2 j) from by idx1,
    show idx_main_v30 (idx_main_v31 j) = ix1 (Spec.c2 j) from by idx1]
  rfl

theorem reluc0_eq :
    val_main_v33 x0 x1 x2 x3 x4 x5 x6 x7 x8 x9 x10 x11 = Spec.relu (val_main_v32 x0 x1 x2 x3 x4 x5 x6 x7 x8 x9 x10 x11) := by
  funext j
  rw [val_main_v33_apply, val_main_call0_v0_apply, val_main_call0_cst_apply]
  rfl

theorem linc2_eq :
    val_main_v38 x0 x1 x2 x3 x4 x5 x6 x7 x8 x9 x10 x11 x12 x13 = Spec.lin x12 x13 (val_main_v33 x0 x1 x2 x3 x4 x5 x6 x7 x8 x9 x10 x11) := lin_of fun j => by
  rw [val_main_v38_apply, val_main_v35_apply, val_main_v37_apply, val_main_v36_apply,
    show idx_main_v36 (idx_main_v37 j) = ix1 (Spec.c2 j) from by idx1]
  show (_ + _ : EReal) = _
  refine congrArg (· + _) (Finset.sum_congr rfl fun k _ => ?_)
  rw [val_main_v34_apply, show lidx_main_v35 j k = ix2 (Spec.r2 j) k from by idx2,
    show idx_main_v34 (ridx_main_v35 j k) = ix2 (Spec.c2 j) k from by idx2]

theorem bn2_eq :
    val_main_v53 x0 x1 x2 x3 x4 x5 x6 x7 x8 x9 x10 x11 x12 x13 x14 x15 x16 x17 = Spec.bn x14 x15 x16 x17 (val_main_v38 x0 x1 x2 x3 x4 x5 x6 x7 x8 x9 x10 x11 x12 x13) := by
  funext j
  rw [val_main_v53_apply, val_main_v50_apply, val_main_v47_apply, val_main_v41_apply, val_main_v40_apply, val_main_v39_apply,
    val_main_v46_apply, val_main_v45_apply, val_main_v44_apply, val_main_v43_apply, val_main_v42_apply, val_main_cst_0_apply,
    val_main_v49_apply, val_main_v48_apply, val_main_v52_apply, val_main_v51_apply,
    show idx_main_v39 (idx_main_v40 j) = ix1 (Spec.c2 j) from by idx1,
    show idx_main_v45 (idx_main_v46 j) = ix1 (Spec.c2 j) from by idx1,
    show idx_main_v48 (idx_main_v49 j) = ix1 (Spec.c2 j) from by idx1,
    show idx_main_v51 (idx_main_v52 j) = ix1 (Spec.c2 j) from by idx1]
  rfl

theorem reluc1_eq :
    val_main_v54 x0 x1 x2 x3 x4 x5 x6 x7 x8 x9 x10 x11 x12 x13 x14 x15 x16 x17 = Spec.relu (val_main_v53 x0 x1 x2 x3 x4 x5 x6 x7 x8 x9 x10 x11 x12 x13 x14 x15 x16 x17) := by
  funext j
  rw [val_main_v54_apply, val_main_call1_v0_apply, val_main_call1_cst_apply]
  rfl

theorem linc3_eq :
    val_main_v59 x0 x1 x2 x3 x4 x5 x6 x7 x8 x9 x10 x11 x12 x13 x14 x15 x16 x17 x18 x19 = Spec.lin x18 x19 (val_main_v54 x0 x1 x2 x3 x4 x5 x6 x7 x8 x9 x10 x11 x12 x13 x14 x15 x16 x17) := lin_of fun j => by
  rw [val_main_v59_apply, val_main_v56_apply, val_main_v58_apply, val_main_v57_apply,
    show idx_main_v57 (idx_main_v58 j) = ix1 (Spec.c2 j) from by idx1]
  show (_ + _ : EReal) = _
  refine congrArg (· + _) (Finset.sum_congr rfl fun k _ => ?_)
  rw [val_main_v55_apply, show lidx_main_v56 j k = ix2 (Spec.r2 j) k from by idx2,
    show idx_main_v55 (ridx_main_v56 j k) = ix2 (Spec.c2 j) k from by idx2]

/-- The subtracted row maximum is the fold of `max` from −∞ over the row. -/
theorem mx_eq (i : Fin 10000) :
    val_main_call2_v2 x0 x1 x2 x3 x4 x5 x6 x7 x8 x9 x10 x11 x12 x13 x14 x15 x16 x17 x18 x19 (ix1 i) = Spec.rowMax (val_main_v59 x0 x1 x2 x3 x4 x5 x6 x7 x8 x9 x10 x11 x12 x13 x14 x15 x16 x17 x18 x19) i := by
  rw [val_main_call2_v2_apply, val_main_call2_v1_apply, val_main_call2_cst_0_apply]
  unfold val_main_call2_v0
  rw [reduceMax_apply, val_main_call2_cst_apply]
  rfl

theorem shifted_eq :
    val_main_call2_v5 x0 x1 x2 x3 x4 x5 x6 x7 x8 x9 x10 x11 x12 x13 x14 x15 x16 x17 x18 x19 = Spec.shifted (val_main_v59 x0 x1 x2 x3 x4 x5 x6 x7 x8 x9 x10 x11 x12 x13 x14 x15 x16 x17 x18 x19) := by
  funext j
  rw [val_main_call2_v5_apply, val_main_call2_v4_apply, val_main_call2_v3_apply,
    show idx_main_call2_v3 (idx_main_call2_v4 j) = ix1 (Spec.r2 j) from by idx1, mx_eq]
  rfl

/-- The row sum of exponentials of the shifted logits, from zero. -/
theorem sumExp_eq (i : Fin 10000) :
    val_main_call2_v7 x0 x1 x2 x3 x4 x5 x6 x7 x8 x9 x10 x11 x12 x13 x14 x15 x16 x17 x18 x19 (ix1 i) = Spec.rowSumExp (val_main_v59 x0 x1 x2 x3 x4 x5 x6 x7 x8 x9 x10 x11 x12 x13 x14 x15 x16 x17 x18 x19) i := by
  rw [val_main_call2_v7_apply, val_main_call2_cst_1_apply]
  show _ + (∑ k : Fin 10, _) = Spec.zero + ∑ o : Fin 10, Ideal.exp (Spec.shifted (val_main_v59 x0 x1 x2 x3 x4 x5 x6 x7 x8 x9 x10 x11 x12 x13 x14 x15 x16 x17 x18 x19) (ix2 i o))
  refine congrArg (_ + ·) (Finset.sum_congr rfl fun k _ => ?_)
  rw [val_main_call2_v6_apply, shifted_eq, show idx_main_call2_v7 (ix1 i) k = ix2 i k from by idx2]
  rfl

theorem lsm_eq :
    val_main_v60 x0 x1 x2 x3 x4 x5 x6 x7 x8 x9 x10 x11 x12 x13 x14 x15 x16 x17 x18 x19 = Spec.logSoftmax (val_main_v59 x0 x1 x2 x3 x4 x5 x6 x7 x8 x9 x10 x11 x12 x13 x14 x15 x16 x17 x18 x19) := by
  funext j
  rw [val_main_v60_apply, val_main_call2_v10_apply, val_main_call2_v9_apply, val_main_call2_v8_apply,
    show idx_main_call2_v8 (idx_main_call2_v10 j) = ix1 (Spec.r2 j) from by idx1, sumExp_eq, shifted_eq]
  rfl

theorem linr1_eq :
    val_main_v65 x0 x1 x2 x3 x4 x5 x20 x21 = Spec.lin x20 x21 (val_main_v12 x0 x1 x2 x3 x4 x5) := lin_of fun j => by
  rw [val_main_v65_apply, val_main_v62_apply, val_main_v64_apply, val_main_v63_apply,
    show idx_main_v63 (idx_main_v64 j) = ix1 (Spec.c2 j) from by idx1]
  show (_ + _ : EReal) = _
  refine congrArg (· + _) (Finset.sum_congr rfl fun k _ => ?_)
  rw [val_main_v61_apply, show lidx_main_v62 j k = ix2 (Spec.r2 j) k from by idx2,
    show idx_main_v61 (ridx_main_v62 j k) = ix2 (Spec.c2 j) k from by idx2]

theorem relur0_eq :
    val_main_v66 x0 x1 x2 x3 x4 x5 x20 x21 = Spec.relu (val_main_v65 x0 x1 x2 x3 x4 x5 x20 x21) := by
  funext j
  rw [val_main_v66_apply, val_main_call3_v0_apply, val_main_call3_cst_apply]
  rfl

theorem linr2_eq :
    val_main_v71 x0 x1 x2 x3 x4 x5 x20 x21 x22 x23 = Spec.lin x22 x23 (val_main_v66 x0 x1 x2 x3 x4 x5 x20 x21) := lin_of fun j => by
  rw [val_main_v71_apply, val_main_v68_apply, val_main_v70_apply, val_main_v69_apply,
    show idx_main_v69 (idx_main_v70 j) = ix1 (Spec.c2 j) from by idx1]
  show (_ + _ : EReal) = _
  refine congrArg (· + _) (Finset.sum_congr rfl fun k _ => ?_)
  rw [val_main_v67_apply, show lidx_main_v68 j k = ix2 (Spec.r2 j) k from by idx2,
    show idx_main_v67 (ridx_main_v68 j k) = ix2 (Spec.c2 j) k from by idx2]

theorem relur1_eq :
    val_main_v72 x0 x1 x2 x3 x4 x5 x20 x21 x22 x23 = Spec.relu (val_main_v71 x0 x1 x2 x3 x4 x5 x20 x21 x22 x23) := by
  funext j
  rw [val_main_v72_apply, val_main_call4_v0_apply, val_main_call4_cst_apply]
  rfl

theorem linr3_eq :
    val_main_v77 x0 x1 x2 x3 x4 x5 x20 x21 x22 x23 x24 x25 = Spec.lin x24 x25 (val_main_v72 x0 x1 x2 x3 x4 x5 x20 x21 x22 x23) := lin_of fun j => by
  rw [val_main_v77_apply, val_main_v74_apply, val_main_v76_apply, val_main_v75_apply,
    show idx_main_v75 (idx_main_v76 j) = ix1 (Spec.c2 j) from by idx1]
  show (_ + _ : EReal) = _
  refine congrArg (· + _) (Finset.sum_congr rfl fun k _ => ?_)
  rw [val_main_v73_apply, show lidx_main_v74 j k = ix2 (Spec.r2 j) k from by idx2,
    show idx_main_v73 (ridx_main_v74 j k) = ix2 (Spec.c2 j) k from by idx2]

/-- The three results are the specification's compositions of the stages. -/
theorem xc5_eq :
    val_main_v60 x0 x1 x2 x3 x4 x5 x6 x7 x8 x9 x10 x11 x12 x13 x14 x15 x16 x17 x18 x19 = Spec.xc5 x0 x1 x2 x3 x4 x5 x6 x7 x8 x9 x10 x11 x12 x13 x14 x15 x16 x17 x18 x19 x20 x21 x22 x23 x24 x25 := by
  rw [lsm_eq, linc3_eq, reluc1_eq, bn2_eq, linc2_eq, reluc0_eq, bn1_eq, linc1_eq, zcat_eq]
  rfl

theorem xr5_eq :
    val_main_v77 x0 x1 x2 x3 x4 x5 x20 x21 x22 x23 x24 x25 = Spec.xr5 x0 x1 x2 x3 x4 x5 x6 x7 x8 x9 x10 x11 x12 x13 x14 x15 x16 x17 x18 x19 x20 x21 x22 x23 x24 x25 := by
  rw [linr3_eq, relur1_eq, linr2_eq, relur0_eq, linr1_eq, zcat_eq]
  rfl

theorem zn_eq :
    val_main_v12 x0 x1 x2 x3 x4 x5 = Spec.zn x0 x1 x2 x3 x4 x5 x6 x7 x8 x9 x10 x11 x12 x13 x14 x15 x16 x17 x18 x19 x20 x21 x22 x23 x24 x25 := by
  rw [zcat_eq]
  rfl

end Cert.ReferenceIdeal.RefValue

end
-- ==== Proof.Algebraic.lean ====
import proofs.«167823_g73521250173546_cont_sun_c4_545_21_alg».proof.Proof.KI.Frame

noncomputable section

namespace Cert.Proof.Alg

open Idealize.ShloMosaic Idealize.SL.Sem

/-- Two posts of one run hold together: each final state satisfies both, and progress and fairness do not mention the post. -/
theorem run_and {nD : Nat} {τ : Topo} {sig : RefSig} {Val : EltTy → Type} {Λ : Labels} {defs : Defs nD τ sig Val Λ}
    {P Q : MemSt nD τ sig Val → Prop} {s : RunSt nD τ sig Val Λ} (h : MeshRun defs P s) (h' : MeshRun defs Q s) :
    MeshRun defs (fun m => P m ∧ Q m) s :=
  ⟨fun t ht hf => ⟨h.post t ht hf, h'.post t ht hf⟩, h.progress, h.fair⟩

/-- A function of 26 arguments takes equal values at arguments that are equal one by one. -/
theorem congr26 {T0 T1 T2 T3 T4 T5 T6 T7 T8 T9 T10 T11 T12 T13 T14 T15 T16 T17 T18 T19 T20 T21 T22 T23 T24 T25 β : Type} (f : T0 → T1 → T2 → T3 → T4 → T5 → T6 → T7 → T8 → T9 → T10 → T11 → T12 → T13 → T14 → T15 → T16 → T17 → T18 → T19 → T20 → T21 → T22 → T23 → T24 → T25 → β)
    {a0 b0 : T0} {a1 b1 : T1} {a2 b2 : T2} {a3 b3 : T3} {a4 b4 : T4} {a5 b5 : T5} {a6 b6 : T6} {a7 b7 : T7} {a8 b8 : T8} {a9 b9 : T9} {a10 b10 : T10} {a11 b11 : T11} {a12 b12 : T12} {a13 b13 : T13} {a14 b14 : T14} {a15 b15 : T15} {a16 b16 : T16} {a17 b17 : T17} {a18 b18 : T18} {a19 b19 : T19} {a20 b20 : T20} {a21 b21 : T21} {a22 b22 : T22} {a23 b23 : T23} {a24 b24 : T24} {a25 b25 : T25}
    (h : a0 = b0 ∧ a1 = b1 ∧ a2 = b2 ∧ a3 = b3 ∧ a4 = b4 ∧ a5 = b5 ∧ a6 = b6 ∧ a7 = b7 ∧ a8 = b8 ∧ a9 = b9 ∧ a10 = b10 ∧ a11 = b11 ∧ a12 = b12 ∧ a13 = b13 ∧ a14 = b14 ∧ a15 = b15 ∧ a16 = b16 ∧ a17 = b17 ∧ a18 = b18 ∧ a19 = b19 ∧ a20 = b20 ∧ a21 = b21 ∧ a22 = b22 ∧ a23 = b23 ∧ a24 = b24 ∧ a25 = b25) :
    f a0 a1 a2 a3 a4 a5 a6 a7 a8 a9 a10 a11 a12 a13 a14 a15 a16 a17 a18 a19 a20 a21 a22 a23 a24 a25 = f b0 b1 b2 b3 b4 b5 b6 b7 b8 b9 b10 b11 b12 b13 b14 b15 b16 b17 b18 b19 b20 b21 b22 b23 b24 b25 := by
  obtain ⟨rfl, rfl, rfl, rfl, rfl, rfl, rfl, rfl, rfl, rfl, rfl, rfl, rfl, rfl, rfl, rfl, rfl, rfl, rfl, rfl, rfl, rfl, rfl, rfl, rfl, rfl⟩ := h
  rfl

open Cert.KernelIdeal Cert.KernelIdeal.Hand in
/-- If the three result arrays after the last grid point are `v`, the run ends with `v` in the three result buffers, and keeps any other post `A` it has. -/
theorem kernel_run (m : (ℓ : Loc nD τ sig) → Buf (Elt Ideal) ℓ) (ρ : Dev nD → PrngReg)
    {v0 : (c : Dev nD) → Buf (Elt Ideal) ((c.tc : Thread nD τ).loc main_v26_0)}
    {v1 : (c : Dev nD) → Buf (Elt Ideal) ((c.tc : Thread nD τ).loc main_v26_1)}
    {v2 : (c : Dev nD) → Buf (Elt Ideal) ((c.tc : Thread nD τ).loc main_v26_2)}
    {A : Dev nD → PUnit × MemSt nD τ sig (Elt Ideal) → Prop}
    (h29 : ∀ c, (dats (F := Ideal) m 0 c).arrAt 29 cfg0.N = v0 c) (h30 : ∀ c, (dats (F := Ideal) m 0 c).arrAt 30 cfg0.N = v1 c)
    (h31 : ∀ c, (dats (F := Ideal) m 0 c).arrAt 31 cfg0.N = v2 c)
    (hA : θ_run (defs (F := Ideal)) (onTc (τ := τ) (main (F := Ideal))) ⟨m, fun _ => 0, ρ⟩ fun r => ∀ c, A c r) :
    θ_run (defs (F := Ideal)) (onTc (τ := τ) (main (F := Ideal))) ⟨m, fun _ => 0, ρ⟩ fun r => ∀ c : Dev nD,
      r.2.mem ((c.tc : Thread nD τ).loc main_v26_0) = v0 c ∧ r.2.mem ((c.tc : Thread nD τ).loc main_v26_1) = v1 c
        ∧ r.2.mem ((c.tc : Thread nD τ).loc main_v26_2) = v2 c ∧ A c r :=
  (run_and (run_main m ρ) hA).mono fun _ h c =>
    ⟨((h.1 c).1 29).trans (h29 c), ((h.1 c).1 30).trans (h30 c), ((h.1 c).1 31).trans (h31 c), h.2 c⟩

end Cert.Proof.Alg

end
-- ==== Proof.lean ====
import proofs.«167823_g73521250173546_cont_sun_c4_545_21_alg».proof.Defs
import proofs.«167823_g73521250173546_cont_sun_c4_545_21_alg».proof.Proof.Gen.Kernel
import proofs.«167823_g73521250173546_cont_sun_c4_545_21_alg».proof.Proof.Gen.KernelIdeal
import proofs.«167823_g73521250173546_cont_sun_c4_545_21_alg».proof.Proof.Gen.ReferenceIdeal
import proofs.«167823_g73521250173546_cont_sun_c4_545_21_alg».proof.Proof.Gen.Pre_finite_inputs
import proofs.«167823_g73521250173546_cont_sun_c4_545_21_alg».proof.Proof.KB.Frame
import proofs.«167823_g73521250173546_cont_sun_c4_545_21_alg».proof.Proof.KI.Frame
import proofs.«167823_g73521250173546_cont_sun_c4_545_21_alg».proof.Proof.KI.ValAt29
import proofs.«167823_g73521250173546_cont_sun_c4_545_21_alg».proof.Proof.KI.ValAt30
import proofs.«167823_g73521250173546_cont_sun_c4_545_21_alg».proof.Proof.KI.ValAt31
import proofs.«167823_g73521250173546_cont_sun_c4_545_21_alg».proof.Proof.RefRunB
import proofs.«167823_g73521250173546_cont_sun_c4_545_21_alg».proof.Proof.RefValue.Stages
import proofs.«167823_g73521250173546_cont_sun_c4_545_21_alg».proof.Proof.Algebraic

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run _ _ _).mono (fun _ h c => (h c).2.2.2) (Cert.ReferenceIdeal.ValueP.run (F := Ideal) m ρ)

open Cert.ReferenceIdeal.ReadP Cert.ReferenceIdeal.RefValue in
/-- Both programs end at the specification's three arrays of the kernel's arguments, which the reference's arguments equal one by one. -/
theorem algebraic : Cert.algebraic_KernelIdeal_ReferenceIdeal := fun m ρ m' ρ' _ hagree =>
  ⟨_, _, _, Alg.kernel_run m ρ (Cert.KernelIdeal.Val.arrAt29_spec m) (Cert.KernelIdeal.Val.arrAt30_spec m)
      (Cert.KernelIdeal.Val.arrAt31_spec m) (Cert.KernelIdeal.Hand.frame m ρ),
    (θ_run _ _ _).mono (fun _ h c =>
      ⟨(h c).1.trans ((val_main_v60_eq m' c).trans ((xc5_eq ..).trans (Alg.congr26 Cert.Spec.xc5 (hagree c)))),
        (h c).2.1.trans ((val_main_v77_eq ..).trans ((xr5_eq ..).trans (Alg.congr26 Cert.Spec.xr5 (hagree c)))),
        (h c).2.2.1.trans ((val_main_v12_eq ..).trans ((zn_eq ..).trans (Alg.congr26 Cert.Spec.zn (hagree c)))),
        (h c).2.2.2⟩) (Cert.ReferenceIdeal.ValueP.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
